-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) (main_arg2 : IVec S16384 32) (main_arg3 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S16384x512 : Shape := ⟨2, ![16384, 512]⟩
abbrev S16384 : Shape := ⟨1, ![16384]⟩
abbrev S8x1x2048 : Shape := ⟨3, ![8, 1, 2048]⟩
abbrev S2x256x512 : Shape := ⟨3, ![2, 256, 512]⟩
abbrev S2x1x256 : Shape := ⟨3, ![2, 1, 256]⟩
abbrev S2048x512 : Shape := ⟨2, ![2048, 512]⟩
abbrev S1x1x2048 : Shape := ⟨3, ![1, 1, 2048]⟩
abbrev S1x256x512 : Shape := ⟨3, ![1, 256, 512]⟩
abbrev S1x1x256 : Shape := ⟨3, ![1, 1, 256]⟩
abbrev S256x512 : Shape := ⟨2, ![256, 512]⟩
abbrev S1x256 : Shape := ⟨2, ![1, 256]⟩
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S512x256 : Shape := ⟨2, ![512, 256]⟩
abbrev S512x768 : Shape := ⟨2, ![512, 768]⟩
abbrev S16x128 : Shape := ⟨2, ![16, 128]⟩
abbrev S1024x512 : Shape := ⟨2, ![1024, 512]⟩
abbrev S8x128 : Shape := ⟨2, ![8, 128]⟩
abbrev S1024x768 : Shape := ⟨2, ![1024, 768]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x128 : Shape := ⟨2, ![1, 128]⟩

abbrev nBuf : Space → Nat
  | .hbm => 70
  | .vmem => 26
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384, .i32⟩
  | .hbm, ⟨3, _⟩ => ⟨S16384, .i32⟩
  | .hbm, ⟨4, _⟩ => ⟨S8x1x2048, .i32⟩
  | .hbm, ⟨5, _⟩ => ⟨S8x1x2048, .i32⟩
  | .hbm, ⟨6, _⟩ => ⟨S2x256x512, .f32⟩
  | .hbm, ⟨7, _⟩ => ⟨S2x1x256, .f32⟩
  | .hbm, ⟨8, _⟩ => ⟨S2x256x512, .f32⟩
  | .hbm, ⟨9, _⟩ => ⟨S2x1x256, .f32⟩
  | .hbm, ⟨10, _⟩ => ⟨S_, .f32⟩
  | .hbm, ⟨11, _⟩ => ⟨S1x256, .f32⟩
  | .hbm, ⟨12, _⟩ => ⟨S256, .f32⟩
  | .hbm, ⟨13, _⟩ => ⟨S_, .f32⟩
  | .hbm, ⟨14, _⟩ => ⟨S1x256, .f32⟩
  | .hbm, ⟨15, _⟩ => ⟨S256, .f32⟩
  | .hbm, ⟨16, _⟩ => ⟨S_, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x1, .f32⟩
  | .hbm, ⟨21, _⟩ => ⟨S256x512, .f32⟩
  | .hbm, ⟨22, _⟩ => ⟨S256x512, .f32⟩
  | .hbm, ⟨23, _⟩ => ⟨S256x1, .f32⟩
  | .hbm, ⟨24, _⟩ => ⟨S256x512, .f32⟩
  | .hbm, ⟨25, _⟩ => ⟨S256x512, .f32⟩
  | .hbm, ⟨26, _⟩ => ⟨S256x512, .f32⟩
  | .hbm, ⟨27, _⟩ => ⟨S256, .f32⟩
  | .hbm, ⟨28, _⟩ => ⟨S256x1, .f32⟩
  | .hbm, ⟨29, _⟩ => ⟨S256x512, .f32⟩
  | .hbm, ⟨30, _⟩ => ⟨S256x512, .f32⟩
  | .hbm, ⟨31, _⟩ => ⟨S512x256, .f32⟩
  | .hbm, ⟨32, _⟩ => ⟨S512x256, .bf16⟩
  | .hbm, ⟨33, _⟩ => ⟨S512x256, .f32⟩
  | .hbm, ⟨34, _⟩ => ⟨S512x256, .bf16⟩
  | .hbm, ⟨35, _⟩ => ⟨S512x256, .f32⟩
  | .hbm, ⟨36, _⟩ => ⟨S512x256, .bf16⟩
  | .hbm, ⟨37, _⟩ => ⟨S512x768, .bf16⟩
  | .hbm, ⟨38, _⟩ => ⟨S16x128, .f32⟩
  | .hbm, ⟨39, _⟩ => ⟨S1x1, .f32⟩
  | .hbm, ⟨40, _⟩ => ⟨S_, .f32⟩
  | .hbm, ⟨41, _⟩ => ⟨S1x1, .f32⟩
  | .hbm, ⟨42, _⟩ => ⟨S_, .f32⟩
  | .hbm, ⟨43, _⟩ => ⟨S_, .f32⟩
  | .hbm, ⟨44, _⟩ => ⟨S1x1, .f32⟩
  | .hbm, ⟨45, _⟩ => ⟨S_, .f32⟩
  | .hbm, ⟨46, _⟩ => ⟨S1x1, .f32⟩
  | .hbm, ⟨47, _⟩ => ⟨S_, .f32⟩
  | .hbm, ⟨48, _⟩ => ⟨S_, .f32⟩
  | .hbm, ⟨49, _⟩ => ⟨S1x1, .f32⟩
  | .hbm, ⟨50, _⟩ => ⟨S_, .f32⟩
  | .hbm, ⟨51, _⟩ => ⟨S1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x256x512, .f32⟩
  | .local _ .vmem, ⟨9, _⟩ => ⟨S1x256x512, .f32⟩
  | .local _ .vmem, ⟨10, _⟩ => ⟨S1x1x256, .f32⟩
  | .local _ .vmem, ⟨11, _⟩ => ⟨S1x1x256, .f32⟩
  | .local _ .vmem, ⟨12, _⟩ => ⟨S1x256x512, .f32⟩
  | .local _ .vmem, ⟨13, _⟩ => ⟨S1x256x512, .f32⟩
  | .local _ .vmem, ⟨14, _⟩ => ⟨S1x1x256, .f32⟩
  | .local _ .vmem, ⟨15, _⟩ => ⟨S1x1x256, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S512x768, .bf16⟩
  | .local _ .vmem, ⟨21, _⟩ => ⟨S8x128, .f32⟩
  | .local _ .vmem, ⟨22, _⟩ => ⟨S8x128, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v161 : BitVec 1 := Scalar.cmpi .eq arg1 c7_i32
  let v162 : BitVec 32 := Scalar.extui v161
  let c0_i32_55 : BitVec 32 := 0#32
  let v163 : BitVec 1 := Scalar.cmpi .ne v162 c0_i32_55
  v163

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S16384_S8x1x2048 : S16384.ShapeCasts S8x1x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  iota_S256x2048_d0_w32 : S256x2048.Iotas .tc 32 [0]
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  natLt_1_32 : 1 < 32
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  reducesTo_S2x1x256_S1x256_d0 : S2x1x256.ReducesTo [0] S1x256
  h_S_ : 0 < S_.numel
  shapeCasts_S1x256_S256 : S1x256.ShapeCasts S256
  reducesTo_S2x256x512_S256x512_d0 : S2x256x512.ReducesTo [0] S256x512
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  transposes_S256x512_S512x256_1_0 : S256x512.Transposes [1, 0] S512x256
  concatenates_S512x256_S512x256_S512x256_S512x768_d1 : Shape.Concatenates [S512x256, S512x256, S512x256] S512x768 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1024x512_S1024x512_0_0 : ∀ a, (![0, 0] : Fin 2 → Nat) a + S1024x512.size a ≤ S1024x512.size a
  h_S1024x512 : 0 < S1024x512.numel
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  reduces_S1024x256_S1024 : S1024x256.Reduces [1] S1024
  shapeCasts_S1024_S1024x1 : S1024.ShapeCasts S1024x1
  broadcasts_S1024x1_S1024x256 : S1024x1.Broadcasts S1024x256
  reduces_S1024x256_S256 : S1024x256.Reduces [0] S256
  shapeCasts_S256_S1x256 : S256.ShapeCasts S1x256
  reduces_S1x256_S1 : S1x256.Reduces [1] S1
  shapeCasts_S1_S1x1 : S1.ShapeCasts S1x1
  iota_S1x128_d1_w32 : S1x128.Iotas .tc 32 [1]
  broadcasts_S1x1_S1x128 : S1x1.Broadcasts S1x128
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_0_1 : S16x128.Slices ![0, 1] S1x1
  slices_S16x128_S1x1_8_1 : S16x128.Slices ![8, 1] S1x1
  slices_S16x128_S1x1_0_2 : S16x128.Slices ![0, 2] S1x1
  slices_S16x128_S1x1_8_2 : S16x128.Slices ![8, 2] S1x1
  dot_S256x2048_S2048x512_S256x512_1_0_0_1_n_n_wf : DotDims.WF S256x2048 S2048x512 S256x512 [1] [0] [0] [1] [] []
  dot_S1x2048_S256x2048_S1x256_1_1_0_0_n_n_wf : DotDims.WF S1x2048 S256x2048 S1x256 [1] [1] [0] [0] [] []
  dot_S1024x512_S512x768_S1024x768_1_0_0_1_n_n_wf : DotDims.WF S1024x512 S512x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .i32 = 32 ∨ (Rect.block (s := S8x1x2048) S1x1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .i32 = 32 ∨ (Rect.block (s := S8x1x2048) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S2x256x512.size a
  hwx0_4 : ∀ i : grid0.Coords, EltTy.bits .f32 = 32 ∨ (Rect.block (s := S2x256x512) S1x256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S2x1x256.size a
  hwx0_5 : ∀ i : grid0.Coords, EltTy.bits .f32 = 32 ∨ (Rect.block (s := S2x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x512.size a ≤ S2x256x512.size a
  hwx0_6 : ∀ i : grid0.Coords, EltTy.bits .f32 = 32 ∨ (Rect.block (s := S2x256x512) S1x256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S2x1x256.size a
  hwx0_7 : ∀ i : grid0.Coords, EltTy.bits .f32 = 32 ∨ (Rect.block (s := S2x1x256) S1x1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .f32 = 32 ∨ (Rect.block (s := S16384x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .f32 = 32 ∨ (Rect.block (s := S16384x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x768.size a ≤ S512x768.size a
  hwx1_2 : ∀ i : grid1.Coords, EltTy.bits .bf16 = 32 ∨ (Rect.block (s := S512x768) S512x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S16x128.size a
  hwx1_3 : ∀ i : grid1.Coords, EltTy.bits .f32 = 32 ∨ (Rect.block (s := S16x128) S8x128.size (cc1_transform_3 i) (hinb1_3 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S512x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S16384 : Shape := ⟨1, ![16384]⟩
abbrev S_ : Shape := ⟨0, ![]⟩
abbrev S256 : Shape := ⟨1, ![256]⟩
abbrev S16384x1 : Shape := ⟨2, ![16384, 1]⟩
abbrev S256x512 : Shape := ⟨2, ![256, 512]⟩
abbrev S256x1 : Shape := ⟨2, ![256, 1]⟩
abbrev S32768x512 : Shape := ⟨2, ![32768, 512]⟩
abbrev S512x256 : Shape := ⟨2, ![512, 256]⟩
abbrev S32768x256 : Shape := ⟨2, ![32768, 256]⟩
abbrev S32768 : Shape := ⟨1, ![32768]⟩
abbrev S32768x1 : Shape := ⟨2, ![32768, 1]⟩

abbrev nBuf : Space → Nat
  | .hbm => 142
  | .vmem => 0
  | .smem => 0
  | _ => 0

abbrev hbmTy0_0 (i : Nat) : BufTy := match i % 128 with
  | 0 => ⟨S16384x512, .f32⟩
  | 1 => ⟨S16384x512, .f32⟩
  | 2 => ⟨S16384, .i32⟩
  | 3 => ⟨S16384, .i32⟩
  | 4 => ⟨S_, .f32⟩
  | 5 => ⟨S16384, .f32⟩
  | 6 => ⟨S_, .f32⟩
  | 7 => ⟨S16384, .f32⟩
  | 8 => ⟨S_, .f32⟩
  | 9 => ⟨S256, .f32⟩
  | 10 => ⟨S16384x1, .i32⟩
  | 11 => ⟨S256, .f32⟩
  | 12 => ⟨S_, .f32⟩
  | 13 => ⟨S256, .f32⟩
  | 14 => ⟨S16384x1, .i32⟩
  | 15 => ⟨S256, .f32⟩
  | 16 => ⟨S_, .f32⟩
  | 17 => ⟨S256x512, .f32⟩
  | 18 => ⟨S16384x1, .i32⟩
  | 19 => ⟨S256x512, .f32⟩
  | 20 => ⟨S_, .f32⟩
  | 21 => ⟨S256x512, .f32⟩
  | 22 => ⟨S16384x1, .i32⟩
  | 23 => ⟨S256x512, .f32⟩
  | 24 => ⟨S256x1, .f32⟩
  | 25 => ⟨S256x512, .f32⟩
  | 26 => ⟨S256x512, .f32⟩
  | 27 => ⟨S256x1, .f32⟩
  | 28 => ⟨S256x512, .f32⟩
  | 29 => ⟨S256x512, .f32⟩
  | 30 => ⟨S256x512, .f32⟩
  | 31 => ⟨S256, .f32⟩
  | 32 => ⟨S256x1, .f32⟩
  | 33 => ⟨S256x512, .f32⟩
  | 34 => ⟨S256x512, .f32⟩
  | 35 => ⟨S32768x512, .f32⟩
  | 36 => ⟨S512x256, .f32⟩
  | 37 => ⟨S32768x256, .f32⟩
  | 38 => ⟨S_, .f32⟩
  | 39 => ⟨S32768, .f32⟩
  | 40 => ⟨S_, .f32⟩
  | 41 => ⟨S32768, .f32⟩
  | 42 => ⟨S32768, .f32⟩
  | 43 => ⟨S32768x1, .f32⟩
  | 44 => ⟨S32768x256, .f32⟩
  | 45 => ⟨S32768x256, .f32⟩
  | 46 => ⟨S32768x256, .f32⟩
  | 47 => ⟨S_, .f32⟩
  | 48 => ⟨S32768, .f32⟩
  | 49 => ⟨S32768x1, .f32⟩
  | 50 => ⟨S32768x1, .f32⟩
  | 51 => ⟨S32768x256, .f32⟩
  | 52 => ⟨S32768x256, .f32⟩
  | 53 => ⟨S512x256, .f32⟩
  | 54 => ⟨S32768x256, .f32⟩
  | 55 => ⟨S_, .f32⟩
  | 56 => ⟨S32768, .f32⟩
  | 57 => ⟨S_, .f32⟩
  | 58 => ⟨S32768, .f32⟩
  | 59 => ⟨S32768, .f32⟩
  | 60 => ⟨S32768x1, .f32⟩
  | 61 => ⟨S32768x256, .f32⟩
  | 62 => ⟨S32768x256, .f32⟩
  | 63 => ⟨S32768x256, .f32⟩
  | 64 => ⟨S_, .f32⟩
  | 65 => ⟨S32768, .f32⟩
  | 66 => ⟨S32768x1, .f32⟩
  | 67 => ⟨S32768x1, .f32⟩
  | 68 => ⟨S32768x256, .f32⟩
  | 69 => ⟨S32768x256, .f32⟩
  | 70 => ⟨S512x256, .f32⟩
  | 71 => ⟨S32768x256, .f32⟩
  | 72 => ⟨S_, .f32⟩
  | 73 => ⟨S32768, .f32⟩
  | 74 => ⟨S_, .f32⟩
  | 75 => ⟨S32768, .f32⟩
  | 76 => ⟨S32768, .f32⟩
  | 77 => ⟨S32768x1, .f32⟩
  | 78 => ⟨S32768x256, .f32⟩
  | 79 => ⟨S32768x256, .f32⟩
  | 80 => ⟨S32768x256, .f32⟩
  | 81 => ⟨S_, .f32⟩
  | 82 => ⟨S32768, .f32⟩
  | 83 => ⟨S32768x1, .f32⟩
  | 84 => ⟨S32768x1, .f32⟩
  | 85 => ⟨S32768x256, .f32⟩
  | 86 => ⟨S32768x256, .f32⟩
  | 87 => ⟨S32768x256, .f32⟩
  | 88 => ⟨S32768x256, .f32⟩
  | 89 => ⟨S32768x256, .f32⟩
  | 90 => ⟨S_, .f32⟩
  | 91 => ⟨S_, .f32⟩
  | 92 => ⟨S_, .f32⟩
  | 93 => ⟨S_, .f32⟩
  | 94 => ⟨S32768x256, .f32⟩
  | 95 => ⟨S32768x256, .f32⟩
  | 96 => ⟨S32768x256, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S32768x256, .f32⟩
  | 105 => ⟨S32768x256, .f32⟩
  | 106 => ⟨S32768x256, .f32⟩
  | 107 => ⟨S_, .f32⟩
  | 108 => ⟨S_, .f32⟩
  | 109 => ⟨S_, .f32⟩
  | 110 => ⟨S_, .f32⟩
  | 111 => ⟨S32768x256, .f32⟩
  | 112 => ⟨S32768x256, .f32⟩
  | 113 => ⟨S32768x256, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S32768x256, .f32⟩
  | 122 => ⟨S32768x256, .f32⟩
  | 123 => ⟨S32768x256, .f32⟩
  | 124 => ⟨S_, .f32⟩
  | 125 => ⟨S_, .f32⟩
  | 126 => ⟨S_, .f32⟩
  | 127 => ⟨S_, .f32⟩
  | _ => ⟨S16384x512, .f32⟩

abbrev hbmTy0_1 (i : Nat) : BufTy := match i % 128 with
  | 0 => ⟨S32768x256, .f32⟩
  | 1 => ⟨S32768x256, .f32⟩
  | 2 => ⟨S32768x256, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_call0_cst_0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_cst_1 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_cst : Ref sig .tc := ⟨.hbm, 55, rfl⟩
abbrev main_call1_v0 : Ref sig .tc := ⟨.hbm, 56, rfl⟩
abbrev main_call1_cst_0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_cst_1 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_call2_cst : Ref sig .tc := ⟨.hbm, 72, rfl⟩
abbrev main_call2_v0 : Ref sig .tc := ⟨.hbm, 73, rfl⟩
abbrev main_call2_cst_0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_cst_1 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_5 : Ref sig .tc := ⟨.hbm, 90, rfl⟩
abbrev main_v38 : Ref sig .tc := ⟨.hbm, 91, rfl⟩
abbrev main_cst_6 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_cst_7 : Ref sig .tc := ⟨.hbm, 97, rfl⟩
abbrev main_v43 : Ref sig .tc := ⟨.hbm, 98, rfl⟩
abbrev main_cst_8 : Ref sig .tc := ⟨.hbm, 99, rfl⟩
abbrev main_v44 : Ref sig .tc := ⟨.hbm, 100, rfl⟩
abbrev main_v45 : Ref sig .tc := ⟨.hbm, 101, rfl⟩
abbrev main_cst_9 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_10 : Ref sig .tc := ⟨.hbm, 107, rfl⟩
abbrev main_v50 : Ref sig .tc := ⟨.hbm, 108, rfl⟩
abbrev main_cst_11 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_12 : Ref sig .tc := ⟨.hbm, 114, rfl⟩
abbrev main_v55 : Ref sig .tc := ⟨.hbm, 115, rfl⟩
abbrev main_cst_13 : Ref sig .tc := ⟨.hbm, 116, rfl⟩
abbrev main_v56 : Ref sig .tc := ⟨.hbm, 117, rfl⟩
abbrev main_v57 : Ref sig .tc := ⟨.hbm, 118, rfl⟩
abbrev main_cst_14 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_cst_15 : Ref sig .tc := ⟨.hbm, 124, rfl⟩
abbrev main_v62 : Ref sig .tc := ⟨.hbm, 125, rfl⟩
abbrev main_cst_16 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_17 : Ref sig .tc := ⟨.hbm, 131, rfl⟩
abbrev main_v67 : Ref sig .tc := ⟨.hbm, 132, rfl⟩
abbrev main_cst_18 : Ref sig .tc := ⟨.hbm, 133, rfl⟩
abbrev main_v68 : Ref sig .tc := ⟨.hbm, 134, rfl⟩
abbrev main_v69 : Ref sig .tc := ⟨.hbm, 135, rfl⟩
abbrev main_cst_19 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_20 : Ref sig .tc := ⟨.hbm, 140, rfl⟩
abbrev main_v73 : Ref sig .tc := ⟨.hbm, 141, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S256 : S_.BroadcastsInDim S256 (![] : Fin 0 → Fin S256.rank)
  bcast_S16384_S16384x1_0 : S16384.BroadcastsInDim S16384x1 (![0] : Fin 1 → Fin S16384x1.rank)
  bcast_S_S256x512 : S_.BroadcastsInDim S256x512 (![] : Fin 0 → Fin S256x512.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  concatenates_S16384x512_S16384x512_S32768x512_d0 : Shape.Concatenates [S16384x512, S16384x512] S32768x512 0
  transposes_S256x512_S512x256_1_0 : S256x512.Transposes [1, 0] S512x256
  reducesTo_S32768x256_S32768_d1 : S32768x256.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  reducesTo_S32768x256_S_d0_1 : S32768x256.ReducesTo [0, 1] S_
  scatter_S256_S16384x1_S16384_n_0_0_1_wf : ScatterDims.WF S256 S16384x1 S16384 [] [0] [0] 1
  scatter_S256x512_S16384x1_S16384x512_1_0_0_1_wf : ScatterDims.WF S256x512 S16384x1 S16384x512 [1] [0] [0] 1
  dot_S32768x512_S512x256_S32768x256_1_0_0_1_n_n_wf : DotDims.WF S32768x512 S512x256 S32768x256 [1] [0] [0] [1] [] []

variable [Facts₀]

def scatter_S256_S16384x1_S16384_n_0_0_1 : ScatterDims S256 S16384x1 S16384 where
  updateWindowDims := []
  insertedWindowDims := [0]
  scatterDimsToOperandDims := [0]
  indexVectorDim := 1
  wf := scatter_S256_S16384x1_S16384_n_0_0_1_wf
def scatter_S256x512_S16384x1_S16384x512_1_0_0_1 : ScatterDims S256x512 S16384x1 S16384x512 where
  updateWindowDims := [1]
  insertedWindowDims := [0]
  scatterDimsToOperandDims := [0]
  indexVectorDim := 1
  wf := scatter_S256x512_S16384x1_S16384x512_1_0_0_1_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf

class Facts : Prop extends Facts₀ where

variable [Facts]
-- ==== Proof.K.Launch.lean ====
import proofs.«420579_j54743653155312_3_alg».proof.Proof.Gen.Kernel
import Idealize.ShloMosaic.Lib.Pipeline.Kit
import Idealize.ShloMosaic.Lib.Pipeline.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 2 → List (DmaSem sig) :=
  fun | 0 => Pipeline.specSems spec0 | 1 => Pipeline.specSems spec1 | ⟨_ + 2, h⟩ => absurd h (Nat.not_lt.2 (Nat.le_add_left _ _))

theorem semsDistinct : ∀ p : Fin 2, (semTab p).Nodup := by decide

theorem semsDisjoint : ∀ p p' : Fin 2, p ≠ p' → (semTab p).Forall (· ∉ semTab p') := by decide

theorem cellOf_inj : Function.Injective (Pipeline.cellOf (nD := nD) (τ := τ) cfgs) :=
  Pipeline.cellOf_injective_of_table cfgs semTab (fun | 0 => rfl | 1 => rfl | ⟨_ + 2, h⟩ => absurd h (Nat.not_lt.2 (Nat.le_add_left _ _))) semsDistinct semsDisjoint

theorem winFacts0 : Pipeline.WinFacts spec0 := by decide

theorem block_pos0 : ∀ w : Fin 8, 0 < (spec0 w).block.numel := by decide

theorem arr_whole0 : ∀ w : Fin 8, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | ⟨_ + 8, h⟩ => absurd h (Nat.not_lt.2 (Nat.le_add_left _ _))
theorem stage_whole0 : ∀ (w : Fin 8) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | ⟨_ + 8, h⟩ => absurd h (Nat.not_lt.2 (Nat.le_add_left _ _))

theorem launch0 : Pipeline.LaunchFacts (nD := nD) (τ := τ) cfgs 0 := ⟨cellOf_inj, winFacts0, block_pos0, arr_whole0, stage_whole0⟩

theorem N_0 : grid0.N = 8 := by decide

theorem bigSep_W0 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

theorem winFacts1 : Pipeline.WinFacts spec1 := by decide

theorem block_pos1 : ∀ w : Fin 4, 0 < (spec1 w).block.numel := by decide

theorem arr_whole1 : ∀ w : Fin 4, (spec1 w).arr.IsWhole := fun | 0 => Memref.isWhole_whole _ | 1 => Memref.isWhole_whole _ | 2 => Memref.isWhole_whole _ | 3 => Memref.isWhole_whole _ | ⟨_ + 4, h⟩ => absurd h (Nat.not_lt.2 (Nat.le_add_left _ _))
theorem stage_whole1 : ∀ (w : Fin 4) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | ⟨_ + 4, h⟩ => absurd h (Nat.not_lt.2 (Nat.le_add_left _ _))

theorem launch1 : Pipeline.LaunchFacts (nD := nD) (τ := τ) cfgs 1 := ⟨cellOf_inj, winFacts1, block_pos1, arr_whole1, stage_whole1⟩

theorem N_1 : grid1.N = 16 := by decide

theorem bigSep_W1 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

abbrev hostOps0 : List (HloOp τ sig (Elt F)) :=
  [ StableHlo.reshape main_arg2 main_v0 rfl shapeCasts_S16384_S8x1x2048,
    StableHlo.reshape main_arg3 main_v1 rfl shapeCasts_S16384_S8x1x2048 ]

theorem hostOps0_sub : (hostOps0 : List (HloOp τ sig (Elt F))).Forall fun op => op.bufs ⊆ StableHlo.tcRefs τ sig :=
  ⟨StableHlo.reshape_bufs_sub .., StableHlo.reshape_bufs_sub ..⟩

abbrev hostOps1 : List (HloOp τ sig (Elt F)) :=
  [ StableHlo.nullary main_cst (constant S_ .f32 0x00000000#32),
    StableHlo.binary main_v2_1 main_cst main_v3 (fun x v => Host.reduceAdd x v reducesTo_S2x1x256_S1x256_d0 h_S_),
    StableHlo.reshape main_v3 main_v4 rfl shapeCasts_S1x256_S256,
    StableHlo.nullary main_cst_0 (constant S_ .f32 0x00000000#32),
    StableHlo.binary main_v2_3 main_cst_0 main_v5 (fun x v => Host.reduceAdd x v reducesTo_S2x1x256_S1x256_d0 h_S_),
    StableHlo.reshape main_v5 main_v6 rfl shapeCasts_S1x256_S256,
    StableHlo.nullary main_cst_1 (constant S_ .f32 0x00000000#32),
    StableHlo.binary main_v2_0 main_cst_1 main_v7 (fun x v => Host.reduceAdd x v reducesTo_S2x256x512_S256x512_d0 h_S_),
    StableHlo.nullary main_cst_2 (constant S_ .f32 0x00000000#32),
    StableHlo.binary main_v2_2 main_cst_2 main_v8 (fun x v => Host.reduceAdd x v reducesTo_S2x256x512_S256x512_d0 h_S_),
    StableHlo.unary main_v4 main_v9 (broadcastInDim S256x1 ![0] bcast_S256_S256x1_0),
    StableHlo.unary main_v9 main_v10 (broadcastInDim S256x512 ![0, 1] bcast_S256x1_S256x512_0_1),
    StableHlo.binary main_v7 main_v10 main_v11 Host.divf,
    StableHlo.unary main_v6 main_v12 (broadcastInDim S256x1 ![0] bcast_S256_S256x1_0),
    StableHlo.unary main_v12 main_v13 (broadcastInDim S256x512 ![0, 1] bcast_S256x1_S256x512_0_1),
    StableHlo.binary main_v8 main_v13 main_v14 Host.divf,
    StableHlo.binary main_v7 main_v8 main_v15 addf,
    StableHlo.binary main_v4 main_v6 main_v16 addf,
    StableHlo.unary main_v16 main_v17 (broadcastInDim S256x1 ![0] bcast_S256_S256x1_0),
    StableHlo.unary main_v17 main_v18 (broadcastInDim S256x512 ![0, 1] bcast_S256x1_S256x512_0_1),
    StableHlo.binary main_v15 main_v18 main_v19 Host.divf,
    StableHlo.unary main_v11 main_v20 (transpose S512x256 [1, 0] · transposes_S256x512_S512x256_1_0),
    StableHlo.unary main_v20 main_v21 (truncf .bf16 · bitsLt_bf16_f32),
    StableHlo.unary main_v14 main_v22 (transpose S512x256 [1, 0] · transposes_S256x512_S512x256_1_0),
    StableHlo.unary main_v22 main_v23 (truncf .bf16 · bitsLt_bf16_f32),
    StableHlo.unary main_v19 main_v24 (transpose S512x256 [1, 0] · transposes_S256x512_S512x256_1_0),
    StableHlo.unary main_v24 main_v25 (truncf .bf16 · bitsLt_bf16_f32),
    StableHlo.nary ![main_v21, main_v23, main_v25] main_v26 (fun u => concatenate S512x768 1 [⟨S512x256, u 0⟩, ⟨S512x256, u 1⟩, ⟨S512x256, u 2⟩] concatenates_S512x256_S512x256_S512x256_S512x768_d1) ]

theorem hostOps1_sub : (hostOps1 : List (HloOp τ sig (Elt F))).Forall fun op => op.bufs ⊆ StableHlo.tcRefs τ sig :=
  ⟨StableHlo.nullary_bufs_sub .., StableHlo.binary_bufs_sub .., StableHlo.reshape_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

abbrev hostOps2 : List (HloOp τ sig (Elt F)) :=
  [ StableHlo.unary main_v27 main_v28 (extractStridedSlice S1x1 ![0, 0] · slices_S16x128_S1x1_0_0),
    StableHlo.reshape main_v28 main_v29 rfl shapeCasts_S1x1_S_,
    StableHlo.unary main_v27 main_v30 (extractStridedSlice S1x1 ![8, 0] · slices_S16x128_S1x1_8_0),
    StableHlo.reshape main_v30 main_v31 rfl shapeCasts_S1x1_S_,
    StableHlo.binary main_v29 main_v31 main_v32 addf,
    StableHlo.unary main_v27 main_v33 (extractStridedSlice S1x1 ![0, 1] · slices_S16x128_S1x1_0_1),
    StableHlo.reshape main_v33 main_v34 rfl shapeCasts_S1x1_S_,
    StableHlo.unary main_v27 main_v35 (extractStridedSlice S1x1 ![8, 1] · slices_S16x128_S1x1_8_1),
    StableHlo.reshape main_v35 main_v36 rfl shapeCasts_S1x1_S_,
    StableHlo.binary main_v34 main_v36 main_v37 addf,
    StableHlo.unary main_v27 main_v38 (extractStridedSlice S1x1 ![0, 2] · slices_S16x128_S1x1_0_2),
    StableHlo.reshape main_v38 main_v39 rfl shapeCasts_S1x1_S_,
    StableHlo.unary main_v27 main_v40 (extractStridedSlice S1x1 ![8, 2] · slices_S16x128_S1x1_8_2),
    StableHlo.reshape main_v40 main_v41 rfl shapeCasts_S1x1_S_,
    StableHlo.binary main_v39 main_v41 main_v42 addf,
    StableHlo.nullary main_cst_3 (constant S_ .f32 0x3F000000#32),
    StableHlo.binary main_cst_3 main_v32 main_v43 mulf,
    StableHlo.nullary main_cst_4 (constant S_ .f32 0x4B000000#32),
    StableHlo.binary main_v43 main_cst_4 main_v44 Host.divf,
    StableHlo.nullary main_cst_5 (constant S_ .f32 0x3F000000#32),
    StableHlo.binary main_cst_5 main_v37 main_v45 mulf,
    StableHlo.nullary main_cst_6 (constant S_ .f32 0x4B000000#32),
    StableHlo.binary main_v45 main_cst_6 main_v46 Host.divf,
    StableHlo.nullary main_cst_7 (constant S_ .f32 0x3F000000#32),
    StableHlo.binary main_cst_7 main_v42 main_v47 mulf,
    StableHlo.nullary main_cst_8 (constant S_ .f32 0x4B000000#32),
    StableHlo.binary main_v47 main_cst_8 main_v48 Host.divf,
    StableHlo.binary main_v44 main_v46 main_v49 addf,
    StableHlo.binary main_v49 main_v48 main_v50 addf,
    StableHlo.nullary main_cst_9 (constant S_ .f32 0x40400000#32),
    StableHlo.binary main_v50 main_cst_9 main_v51 Host.divf ]

theorem hostOps2_sub : (hostOps2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub ..⟩

abbrev main_part0_ops2 : List (HloOp τ sig (Elt F)) := hostOps2.take 28

theorem main_part0_chain (c : Dev nD) : main_part0 (F := F) c = (Pipeline.chainK
  [ StableHlo.seq hostOps0,
    Prog.lift (.customCall (Pipeline.entry 0) ()),
    StableHlo.seq hostOps1,
    Prog.lift (.customCall (Pipeline.entry 1) ()) ]
  (StableHlo.seq main_part0_ops2) : Prog (TpuEff nD τ sig (Elt F) (Pipeline.Sig Λ₀ (Fin 2) fun p => (pcfgs (F := F) p).Adm) .tc) PUnit) := by
  chain_rfl

abbrev main_part1_ops0 : List (HloOp τ sig (Elt F)) := hostOps2.drop 28

theorem main_part1_chain (c : Dev nD) : main_part1 (F := F) c = (Pipeline.chain
  [ StableHlo.seq main_part1_ops0 ] : Prog (TpuEff nD τ sig (Elt F) (Pipeline.Sig Λ₀ (Fin 2) fun p => (pcfgs (F := F) p).Adm) .tc) PUnit) := by
  chain_rfl

theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2 ] : Prog (TpuEff nD τ sig (Elt F) (Pipeline.Sig Λ₀ (Fin 2) fun p => (pcfgs (F := F) p).Adm) .tc) PUnit) := by
  show (main_part0 (F := F) c >>= fun _ => main_part1 (F := F) c) = _
  rewrite [main_part1_chain, main_part0_chain, Pipeline.chainK_bind_chain]
  chain_rfl

end Cert.Kernel.Gen

end
-- ==== Proof.K.R0Runs.lean ====
import proofs.«420579_j54743653155312_3_alg».proof.Proof.K.Launch
import proofs.«420579_j54743653155312_3_alg».proof.Proof.Gen.Kernel.Skeleton
import proofs.«420579_j54743653155312_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

set_option maxHeartbeats 4000000 in

noncomputable def kernelRun0_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (arg9 : Memref sig .tc .vmem S1x1x256 .f32) (harg9 : arg9.IsWhole) (hc0 : cond0_0 i)
    (x0 : Vec F S2048x512 .f32) (x1 : Vec F S2048x512 .f32) (x2 : Vec F S1x1x2048 .i32) (x3 : Vec F S1x1x2048 .i32) :
    Σ' (L4 : List (View.Piece (Elt F) S1x256x512 .f32)) (L5 : List (View.Piece (Elt F) S1x1x256 .f32)) (L6 : List (View.Piece (Elt F) S1x256x512 .f32)), { L7 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]; swap; isplitl [H1]; swap; isplitl [H2]; swap; isplitl [H3]; swap
    isplitl [H4]; swap; isplitl [H5]; swap; isplitl [H6]; swap
    all_goals first | (iexists _; iassumption) | (iexists _; isplitr; (ipureintro; assumption); iassumption)

set_option maxHeartbeats 4000000 in

noncomputable def kernelRun0_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (arg9 : Memref sig .tc .vmem S1x1x256 .f32) (harg9 : arg9.IsWhole) (hc0 : ¬cond0_0 i)
    (x0 : Vec F S2048x512 .f32) (x1 : Vec F S2048x512 .f32) (x2 : Vec F S1x1x2048 .i32) (x3 : Vec F S1x1x2048 .i32) (xo4 : Vec F S1x256x512 .f32) (xo5 : Vec F S1x1x256 .f32) (xo6 : Vec F S1x256x512 .f32) (xo7 : Vec F S1x1x256 .f32) :
    Σ' (L4 : List (View.Piece (Elt F) S1x256x512 .f32)) (L5 : List (View.Piece (Elt F) S1x1x256 .f32)) (L6 : List (View.Piece (Elt F) S1x256x512 .f32)), { L7 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc0)
    sl_step
    iapply Hk
    isplitl [H0]; swap; isplitl [H1]; swap; isplitl [H2]; swap; isplitl [H3]; swap
    isplitl [H4]; swap; isplitl [H5]; swap; isplitl [H6]; swap
    all_goals first | (iexists _; iassumption) | (iexists _; isplitr; (ipureintro; assumption); iassumption)

end Cert.Kernel.Gen

end
-- ==== Proof.K.R0Data.lean ====
import proofs.«420579_j54743653155312_3_alg».proof.Proof.K.R0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO0_4 : View sig .tc .vmem S1x256x512 .f32 := (Memref.whole cc0_stg4_0 : Memref sig .tc .vmem S1x256x512 .f32).view

abbrev VO0_5 : View sig .tc .vmem S1x1x256 .f32 := (Memref.whole cc0_stg5_0 : Memref sig .tc .vmem S1x1x256 .f32).view

abbrev VO0_6 : View sig .tc .vmem S1x256x512 .f32 := (Memref.whole cc0_stg6_0 : Memref sig .tc .vmem S1x256x512 .f32).view

abbrev VO0_7 : View sig .tc .vmem S1x1x256 .f32 := (Memref.whole cc0_stg7_0 : Memref sig .tc .vmem S1x1x256 .f32).view

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)

abbrev Outs0 (F : FTy → Type) [FloatOps F] : Type := Vec F S1x256x512 .f32 × Vec F S1x1x256 .f32 × Vec F S1x256x512 .f32 × Vec F S1x1x256 .f32

def runA0 (c : Dev nD) (t : Fin cfg0.N) (h : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk0 V c 0 t) (iblk0 V c 1 t) (iblk0 V c 2 t) (iblk0 V c 3 t)

def runB0 (c : Dev nD) (t : Fin cfg0.N) (h : ¬t.val % 4 = 0) (p : Outs0 F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => h ((hcond0_0 t).mp hh)) (iblk0 V c 0 t) (iblk0 V c 1 t) (iblk0 V c 2 t) (iblk0 V c 3 t) p.1 p.2.1 p.2.2.1 p.2.2.2

theorem cover0_A_4 (c : Dev nD) (t : Fin cfg0.N) (h : t.val % 4 = 0) (y : S1x256x512.Idx) :
    ∃ pc ∈ (runA0 V c t h).1, y ∈ pc.1.set :=
  View.cover_of_tiledL _ S1x256x512.size (by unfold runA0; sl_kernel_rfl) y

theorem cover0_A_5 (c : Dev nD) (t : Fin cfg0.N) (h : t.val % 4 = 0) (y : S1x1x256.Idx) :
    ∃ pc ∈ (runA0 V c t h).2.1, y ∈ pc.1.set :=
  View.cover_of_tiledL _ S1x1x256.size (by unfold runA0; sl_kernel_rfl) y

theorem cover0_A_6 (c : Dev nD) (t : Fin cfg0.N) (h : t.val % 4 = 0) (y : S1x256x512.Idx) :
    ∃ pc ∈ (runA0 V c t h).2.2.1, y ∈ pc.1.set :=
  View.cover_of_tiledL _ S1x256x512.size (by unfold runA0; sl_kernel_rfl) y

theorem cover0_A_7 (c : Dev nD) (t : Fin cfg0.N) (h : t.val % 4 = 0) (y : S1x1x256.Idx) :
    ∃ pc ∈ (runA0 V c t h).2.2.2.1, y ∈ pc.1.set :=
  View.cover_of_tiledL _ S1x1x256.size (by unfold runA0; sl_kernel_rfl) y

def outA0 (c : Dev nD) (t : Fin cfg0.N) (h : t.val % 4 = 0) : Outs0 F :=
  (VO0_4.read (Elt F) (VO0_4.writes (Elt F) VO0_4.junk (runA0 V c t h).1),
   VO0_5.read (Elt F) (VO0_5.writes (Elt F) VO0_5.junk (runA0 V c t h).2.1),
   VO0_6.read (Elt F) (VO0_6.writes (Elt F) VO0_6.junk (runA0 V c t h).2.2.1),
   VO0_7.read (Elt F) (VO0_7.writes (Elt F) VO0_7.junk (runA0 V c t h).2.2.2.1))

theorem cover0_B_4 (c : Dev nD) (t : Fin cfg0.N) (h : ¬t.val % 4 = 0) (p : Outs0 F) (y : S1x256x512.Idx) :
    ∃ pc ∈ (runB0 V c t h p).1, y ∈ pc.1.set :=
  View.cover_of_tiledL _ S1x256x512.size (by unfold runB0; sl_kernel_rfl) y

theorem cover0_B_5 (c : Dev nD) (t : Fin cfg0.N) (h : ¬t.val % 4 = 0) (p : Outs0 F) (y : S1x1x256.Idx) :
    ∃ pc ∈ (runB0 V c t h p).2.1, y ∈ pc.1.set :=
  View.cover_of_tiledL _ S1x1x256.size (by unfold runB0; sl_kernel_rfl) y

theorem cover0_B_6 (c : Dev nD) (t : Fin cfg0.N) (h : ¬t.val % 4 = 0) (p : Outs0 F) (y : S1x256x512.Idx) :
    ∃ pc ∈ (runB0 V c t h p).2.2.1, y ∈ pc.1.set :=
  View.cover_of_tiledL _ S1x256x512.size (by unfold runB0; sl_kernel_rfl) y

theorem cover0_B_7 (c : Dev nD) (t : Fin cfg0.N) (h : ¬t.val % 4 = 0) (p : Outs0 F) (y : S1x1x256.Idx) :
    ∃ pc ∈ (runB0 V c t h p).2.2.2.1, y ∈ pc.1.set :=
  View.cover_of_tiledL _ S1x1x256.size (by unfold runB0; sl_kernel_rfl) y

def outB0 (c : Dev nD) (t : Fin cfg0.N) (h : ¬t.val % 4 = 0) (p : Outs0 F) : Outs0 F :=
  (VO0_4.read (Elt F) (VO0_4.writes (Elt F) VO0_4.junk (runB0 V c t h p).1),
   VO0_5.read (Elt F) (VO0_5.writes (Elt F) VO0_5.junk (runB0 V c t h p).2.1),
   VO0_6.read (Elt F) (VO0_6.writes (Elt F) VO0_6.junk (runB0 V c t h p).2.2.1),
   VO0_7.read (Elt F) (VO0_7.writes (Elt F) VO0_7.junk (runB0 V c t h p).2.2.2.1))

def outsAt0 (c : Dev nD) : (n : ℕ) → n < cfg0.N → Outs0 F
  | 0, hn => outA0 V c ⟨0, hn⟩ (Nat.zero_mod _)
  | n + 1, hn =>
    if h0 : (n + 1) % 4 = 0 then outA0 V c ⟨n + 1, hn⟩ h0
    else outB0 V c ⟨n + 1, hn⟩ h0 (outsAt0 c n (Nat.lt_of_succ_lt hn))

theorem outsAt0_A (c : Dev nD) (t : Fin cfg0.N) (h0 : t.val % 4 = 0) :
    outsAt0 V c t.val t.isLt = outA0 V c t h0 := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = outB0 V c t h0 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = (outsAt0 V c t.val t.isLt).1 := rfl
theorem after0_5 (c : Dev nD) (t : Fin cfg0.N) : (dat0 V c).after 5 t = (outsAt0 V c t.val t.isLt).2.1 := rfl
theorem after0_6 (c : Dev nD) (t : Fin cfg0.N) : (dat0 V c).after 6 t = (outsAt0 V c t.val t.isLt).2.2.1 := rfl
theorem after0_7 (c : Dev nD) (t : Fin cfg0.N) : (dat0 V c).after 7 t = (outsAt0 V c t.val t.isLt).2.2.2 := rfl
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem before0_kept (c : Dev nD) (w : Fin cfg0.W) (hw : (cfg0.win w).isOut = true)
    (hfl : ∀ t : Fin cfg0.N, (cfg0.win w).flush t = true ↔ t.val % 4 = 3) (hlive : ∀ i, cfg0.idle w i = false)
    (hclip : ∀ (i : cfg0.grid.Coords) a, (cfg0.win w).clip i a = none) (t : Fin cfg0.N) (h0 : ¬t.val % 4 = 0) (d) :
    (dat0 V c).before w t d = (dat0 V c).after w ⟨t.val - 1, Nat.lt_of_le_of_lt (Nat.sub_le _ _) t.isLt⟩ := by
  have hN : t.val < 8 := lt_of_lt_of_eq t.isLt (show cfg0.N = 8 from N_0)
  exact Dat.before_out_kept _ w hw t (by omega) (Bool.eq_false_iff.mpr fun h => by have := (hfl _).mp h; dsimp only at this; omega) hlive hclip d

theorem before0_4_B (c : Dev nD) (t : Fin cfg0.N) (h0 : ¬t.val % 4 = 0) (d) :
    (dat0 V c).before 4 t d = (outsAt0 V c (t.val - 1) (Nat.lt_of_le_of_lt (Nat.sub_le _ _) t.isLt)).1 :=
  (before0_kept V c 4 rfl flush0_4 (fun _ => rfl) (fun _ _ => rfl) t h0 d).trans rfl

theorem before0_5_B (c : Dev nD) (t : Fin cfg0.N) (h0 : ¬t.val % 4 = 0) (d) :
    (dat0 V c).before 5 t d = (outsAt0 V c (t.val - 1) (Nat.lt_of_le_of_lt (Nat.sub_le _ _) t.isLt)).2.1 :=
  (before0_kept V c 5 rfl flush0_5 (fun _ => rfl) (fun _ _ => rfl) t h0 d).trans rfl

theorem before0_6_B (c : Dev nD) (t : Fin cfg0.N) (h0 : ¬t.val % 4 = 0) (d) :
    (dat0 V c).before 6 t d = (outsAt0 V c (t.val - 1) (Nat.lt_of_le_of_lt (Nat.sub_le _ _) t.isLt)).2.2.1 :=
  (before0_kept V c 6 rfl flush0_6 (fun _ => rfl) (fun _ _ => rfl) t h0 d).trans rfl

theorem before0_7_B (c : Dev nD) (t : Fin cfg0.N) (h0 : ¬t.val % 4 = 0) (d) :
    (dat0 V c).before 7 t d = (outsAt0 V c (t.val - 1) (Nat.lt_of_le_of_lt (Nat.sub_le _ _) t.isLt)).2.2.2 :=
  (before0_kept V c 7 rfl flush0_7 (fun _ => rfl) (fun _ _ => rfl) t h0 d).trans rfl

end Cert.Kernel.Gen

end
-- ==== Proof.K.R0Frame.lean ====
import proofs.«420579_j54743653155312_3_alg».proof.Proof.K.R0Data

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

-- Reading back a family of writes that covers every position does not depend on the contents underneath.
theorem owns_of_cover0 {sh : Shape} {e : EltTy} (c : Dev nD) (mr : Memref sig .tc .vmem sh e) (v' : View sig .tc .vmem sh e)
    (L : List (View.Piece (Elt F) sh e)) (hL : ∀ y, ∃ pc ∈ L, y ∈ pc.1.set) :
    (iprop(∃ f, mr.view.loc (c : Thread nD τ) ↦[mr.view.set]{fullShare} mr.view.writes (Elt F) f L) : sProp 𝕄)
      ⊢ owns (c : Thread nD τ) mr fullShare (v'.read (Elt F) (v'.writes (Elt F) v'.junk L)) := by
  unfold owns
  iintro ⟨%f, H⟩
  iexists _; isplitr
  swap; · iexact H
  ipureintro; exact View.read_writes_of_cover _ _ _ _ _ hL

set_option maxHeartbeats 4000000 in

theorem body_obligation0 : BodyObligation (dat0 (F := F) V c) (defs₀ (F := F)) Variants.none () Set.univ := fun t => by
  rw [bigSep_W0, bigSep_W0]
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  by_cases h0 : t.val % 4 = 0
  · rw [outsAt0_A V c t h0]
    unfold outA0; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA0 V c t h0).2.2.2.2 Set.univ _)
    iframe H0 H1 H2 H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    iframe HΦ Ho H0 H1 H2 H3
    isplitl [H4]; · iapply (owns_of_cover0 c _ _ _ (cover0_A_4 V c t h0)); iexact H4
    isplitl [H5]; · iapply (owns_of_cover0 c _ _ _ (cover0_A_5 V c t h0)); iexact H5
    isplitl [H6]; · iapply (owns_of_cover0 c _ _ _ (cover0_A_6 V c t h0)); iexact H6
    iapply (owns_of_cover0 c _ _ _ (cover0_A_7 V c t h0)); iexact H7
  · rw [outsAt0_B V c t h0]
    simp only [before0_4_B V c t h0, before0_5_B V c t h0, before0_6_B V c t h0, before0_7_B V c t h0]
    unfold outB0; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB0 V c t h0 _).2.2.2.2 Set.univ _)
    iframe H0 H1 H2 H3 H4 H5 H6 H7
    iintro ⟨H0, H1, H2, H3, H4, H5, H6, H7⟩
    iframe HΦ Ho H0 H1 H2 H3
    isplitl [H4]; · iapply (owns_of_cover0 c _ _ _ (cover0_B_4 V c t h0 _)); iexact H4
    isplitl [H5]; · iapply (owns_of_cover0 c _ _ _ (cover0_B_5 V c t h0 _)); iexact H5
    isplitl [H6]; · iapply (owns_of_cover0 c _ _ _ (cover0_B_6 V c t h0 _)); iexact H6
    iapply (owns_of_cover0 c _ _ _ (cover0_B_7 V c t h0 _)); iexact H7

end Cert.Kernel.Gen

end
-- ==== Proof.K.R1Runs.lean ====
import proofs.«420579_j54743653155312_3_alg».proof.Proof.K.Launch
import proofs.«420579_j54743653155312_3_alg».proof.Proof.Gen.Kernel.Skeleton
import proofs.«420579_j54743653155312_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

set_option maxHeartbeats 4000000 in

noncomputable def kernelRun1_A (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S512x768 .bf16) (harg4 : arg4.IsWhole) (arg5 : Memref sig .tc .vmem S8x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond1_0 i) (hc1 : ¬cond1_1 i)
    (x0 : Vec F S1024x512 .f32) (x1 : Vec F S1024x512 .f32) (x2 : Vec F S512x768 .bf16) :
    Σ' (L3 : List (View.Piece (Elt F) S8x128 .f32)) (LS0 : List (View.Piece (Elt F) S1x256 .f32)) (LS1 : List (View.Piece (Elt F) S1x256 .f32)), { LS2 : List (View.Piece (Elt F) S1x256 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; swap; isplitl [H1]; swap; isplitl [H2]; swap; isplitl [H3]; swap
    isplitl [HS0]; swap; isplitl [HS1]; swap
    all_goals first | (iexists _; iassumption) | (iexists _; isplitr; (ipureintro; assumption); iassumption)

set_option maxHeartbeats 4000000 in

noncomputable def kernelRun1_B (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S512x768 .bf16) (harg4 : arg4.IsWhole) (arg5 : Memref sig .tc .vmem S8x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond1_0 i) (hc1 : ¬cond1_1 i)
    (x0 : Vec F S1024x512 .f32) (x1 : Vec F S1024x512 .f32) (x2 : Vec F S512x768 .bf16) (xs0 : Vec F S1x256 .f32) (xs1 : Vec F S1x256 .f32) (xs2 : Vec F S1x256 .f32) :
    Σ' (L3 : List (View.Piece (Elt F) S8x128 .f32)) (LS0 : List (View.Piece (Elt F) S1x256 .f32)) (LS1 : List (View.Piece (Elt F) S1x256 .f32)), { LS2 : List (View.Piece (Elt F) S1x256 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]; swap; isplitl [H1]; swap; isplitl [H2]; swap; isplitl [H3]; swap
    isplitl [HS0]; swap; isplitl [HS1]; swap
    all_goals first | (iexists _; iassumption) | (iexists _; isplitr; (ipureintro; assumption); iassumption)

set_option maxHeartbeats 4000000 in

noncomputable def kernelRun1_C (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S512x768 .bf16) (harg4 : arg4.IsWhole) (arg5 : Memref sig .tc .vmem S8x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond1_0 i) (hc1 : cond1_1 i)
    (x0 : Vec F S1024x512 .f32) (x1 : Vec F S1024x512 .f32) (x2 : Vec F S512x768 .bf16) (xs0 : Vec F S1x256 .f32) (xs1 : Vec F S1x256 .f32) (xs2 : Vec F S1x256 .f32) :
    Σ' (L3 : List (View.Piece (Elt F) S8x128 .f32)) (LS0 : List (View.Piece (Elt F) S1x256 .f32)) (LS1 : List (View.Piece (Elt F) S1x256 .f32)), { LS2 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]; swap; isplitl [H1]; swap; isplitl [H2]; swap; isplitl [H3]; swap
    isplitl [HS0]; swap; isplitl [HS1]; swap
    all_goals first | (iexists _; iassumption) | (iexists _; isplitr; (ipureintro; assumption); iassumption)

end Cert.Kernel.Gen

end
-- ==== Proof.K.R1Frame.lean ====
import proofs.«420579_j54743653155312_3_alg».proof.Proof.K.R1Runs
import proofs.«420579_j54743653155312_3_alg».proof.Proof.K.R0Frame

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_3 : View sig .tc .vmem S8x128 .f32 := (Memref.whole cc1_stg3_0 : Memref sig .tc .vmem S8x128 .f32).view

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)

abbrev scM1_0 : Memref sig .tc .vmem S1x256 .f32 := Memref.whole cc1_scratch0
abbrev scM1_1 : Memref sig .tc .vmem S1x256 .f32 := Memref.whole cc1_scratch1
abbrev scM1_2 : Memref sig .tc .vmem S1x256 .f32 := Memref.whole cc1_scratch2

abbrev VS1_0 : View sig .tc .vmem S1x256 .f32 := scM1_0.view
abbrev VS1_1 : View sig .tc .vmem S1x256 .f32 := scM1_1.view
abbrev VS1_2 : View sig .tc .vmem S1x256 .f32 := scM1_2.view

abbrev Scr1 (F : FTy → Type) [FloatOps F] : Type := Vec F S1x256 .f32 × Vec F S1x256 .f32 × Vec F S1x256 .f32

def rest1 (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ ∃ r, prngReg c r)

theorem sep_eq (P Q : sProp 𝕄) : BI.sep P Q = iprop(P ∗ Q) := rfl
theorem sep_assoc_eq (P Q R : sProp 𝕄) : iprop((P ∗ Q) ∗ R) = iprop(P ∗ Q ∗ R) :=
  BI.equiv_iff.mp ⟨BI.sep_assoc, BI.sep_assoc'⟩

abbrev scrAny (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d) ∗ rest1 (F := F) c)

theorem PhiA1_eq (c : Dev nD) : (Pipeline.ΦA spec1 c : sProp 𝕄) = scrAny (F := F) c := by
  unfold scrAny Pipeline.ΦA rest1
  rw [Pipeline.scopedRest_split_of_list spec1 c [cc1_scratch0, cc1_scratch1, cc1_scratch2] (by decide) (by decide)]
  simp only [scM1_0, scM1_1, scM1_2, owns_whole, bigSepL_cons_cons, bigSepL_singleton, sep_eq, sep_assoc_eq]
  rfl

def runA1 (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)

def runB1 (c : Dev nD) (t : Fin cfg1.N) (h0 : ¬t.val % 8 = 0) (h1 : ¬t.val % 8 = 7) (p : Scr1 F) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2

def runC1 (c : Dev nD) (t : Fin cfg1.N) (h0 : ¬t.val % 8 = 0) (h1 : t.val % 8 = 7) (p : Scr1 F) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

variable (c : Dev nD) (t : Fin cfg1.N)

section
variable (h0 : t.val % 8 = 0) (y : S1x256.Idx)
theorem scover1_A_0 : ∃ pc ∈ (runA1 V c t h0).2.1, y ∈ pc.1.set :=
  View.cover_of_tiledL _ S1x256.size (by unfold runA1; sl_kernel_rfl) y
theorem scover1_A_1 : ∃ pc ∈ (runA1 V c t h0).2.2.1, y ∈ pc.1.set :=
  View.cover_of_tiledL _ S1x256.size (by unfold runA1; sl_kernel_rfl) y
theorem scover1_A_2 : ∃ pc ∈ (runA1 V c t h0).2.2.2.1, y ∈ pc.1.set :=
  View.cover_of_tiledL _ S1x256.size (by unfold runA1; sl_kernel_rfl) y
end

def soutA1 (c : Dev nD) (t : Fin cfg1.N) (h0 : t.val % 8 = 0) : Scr1 F :=
  (VS1_0.read (Elt F) (VS1_0.writes (Elt F) VS1_0.junk (runA1 V c t h0).2.1),
   VS1_1.read (Elt F) (VS1_1.writes (Elt F) VS1_1.junk (runA1 V c t h0).2.2.1),
   VS1_2.read (Elt F) (VS1_2.writes (Elt F) VS1_2.junk (runA1 V c t h0).2.2.2.1))

section
variable (h0 : ¬t.val % 8 = 0) (h1 : ¬t.val % 8 = 7) (p : Scr1 F) (y : S1x256.Idx)
theorem scover1_B_0 : ∃ pc ∈ (runB1 V c t h0 h1 p).2.1, y ∈ pc.1.set :=
  View.cover_of_tiledL _ S1x256.size (by unfold runB1; sl_kernel_rfl) y
theorem scover1_B_1 : ∃ pc ∈ (runB1 V c t h0 h1 p).2.2.1, y ∈ pc.1.set :=
  View.cover_of_tiledL _ S1x256.size (by unfold runB1; sl_kernel_rfl) y
theorem scover1_B_2 : ∃ pc ∈ (runB1 V c t h0 h1 p).2.2.2.1, y ∈ pc.1.set :=
  View.cover_of_tiledL _ S1x256.size (by unfold runB1; sl_kernel_rfl) y
end

def soutB1 (c : Dev nD) (t : Fin cfg1.N) (h0 : ¬t.val % 8 = 0) (h1 : ¬t.val % 8 = 7) (p : Scr1 F) : Scr1 F :=
  (VS1_0.read (Elt F) (VS1_0.writes (Elt F) VS1_0.junk (runB1 V c t h0 h1 p).2.1),
   VS1_1.read (Elt F) (VS1_1.writes (Elt F) VS1_1.junk (runB1 V c t h0 h1 p).2.2.1),
   VS1_2.read (Elt F) (VS1_2.writes (Elt F) VS1_2.junk (runB1 V c t h0 h1 p).2.2.2.1))

section
variable (h0 : ¬t.val % 8 = 0) (h1 : t.val % 8 = 7) (p : Scr1 F) (y : S1x256.Idx)
theorem scover1_C_0 : ∃ pc ∈ (runC1 V c t h0 h1 p).2.1, y ∈ pc.1.set :=
  View.cover_of_tiledL _ S1x256.size (by unfold runC1; sl_kernel_rfl) y
theorem scover1_C_1 : ∃ pc ∈ (runC1 V c t h0 h1 p).2.2.1, y ∈ pc.1.set :=
  View.cover_of_tiledL _ S1x256.size (by unfold runC1; sl_kernel_rfl) y
theorem scover1_C_2 : ∃ pc ∈ (runC1 V c t h0 h1 p).2.2.2.1, y ∈ pc.1.set :=
  View.cover_of_tiledL _ S1x256.size (by unfold runC1; sl_kernel_rfl) y
theorem cover1_C_3 (y : S8x128.Idx) : ∃ pc ∈ (runC1 V c t h0 h1 p).1, y ∈ pc.1.set :=
  View.cover_of_tiledL _ S8x128.size (by unfold runC1; sl_kernel_rfl) y
end

def soutC1 (c : Dev nD) (t : Fin cfg1.N) (h0 : ¬t.val % 8 = 0) (h1 : t.val % 8 = 7) (p : Scr1 F) : Scr1 F :=
  (VS1_0.read (Elt F) (VS1_0.writes (Elt F) VS1_0.junk (runC1 V c t h0 h1 p).2.1),
   VS1_1.read (Elt F) (VS1_1.writes (Elt F) VS1_1.junk (runC1 V c t h0 h1 p).2.2.1),
   VS1_2.read (Elt F) (VS1_2.writes (Elt F) VS1_2.junk (runC1 V c t h0 h1 p).2.2.2.1))

def outC1 (c : Dev nD) (t : Fin cfg1.N) (h0 : ¬t.val % 8 = 0) (h1 : t.val % 8 = 7) (p : Scr1 F) : Vec F S8x128 .f32 :=
  VO1_3.read (Elt F) (VO1_3.writes (Elt F) VO1_3.junk (runC1 V c t h0 h1 p).1)

def idleOut1 : Vec F S8x128 .f32 := VO1_3.read (Elt F) VO1_3.junk

def outsAt1 (c : Dev nD) : (n : ℕ) → n < cfg1.N → Vec F S8x128 .f32 × Scr1 F
  | 0, hn => (idleOut1, soutA1 V c ⟨0, hn⟩ (Nat.zero_mod _))
  | n + 1, hn =>
    if h0 : (n + 1) % 8 = 0 then (idleOut1, soutA1 V c ⟨n + 1, hn⟩ h0)
    else if h1 : (n + 1) % 8 = 7 then
      (outC1 V c ⟨n + 1, hn⟩ h0 h1 (outsAt1 c n (Nat.lt_of_succ_lt hn)).2, soutC1 V c ⟨n + 1, hn⟩ h0 h1 (outsAt1 c n (Nat.lt_of_succ_lt hn)).2)
    else (idleOut1, soutB1 V c ⟨n + 1, hn⟩ h0 h1 (outsAt1 c n (Nat.lt_of_succ_lt hn)).2)

theorem outsAt1_A (c : Dev nD) (t : Fin cfg1.N) (h0 : t.val % 8 = 0) :
    outsAt1 V c t.val t.isLt = (idleOut1, soutA1 V c t h0) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idleOut1, soutB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC1 V c t h0 h1 (outsAt1 V c (t.val - 1) (Nat.lt_of_le_of_lt (Nat.sub_le _ _) t.isLt)).2, soutC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev scrOwn (c : Dev nD) (p : Scr1 F) : sProp 𝕄 :=
  iprop(owns (c : Thread nD τ) scM1_0 fullShare p.1 ∗ owns (c : Thread nD τ) scM1_1 fullShare p.2.1 ∗ owns (c : Thread nD τ) scM1_2 fullShare p.2.2 ∗ rest1 (F := F) c)

def PhiS1 (c : Dev nD) : (n : ℕ) → n ≤ cfg1.N → sProp 𝕄
  | 0, _ => Pipeline.ΦA spec1 c
  | n + 1, hn => scrOwn c (outsAt1 V c n hn).2

theorem PhiS1_pos (c : Dev nD) (n : ℕ) (h : n ≤ cfg1.N) (hz : n ≠ 0) : PhiS1 V c n h = scrOwn c (outsAt1 V c (n - 1) (by omega)).2 := by
  cases n with
  | zero => exact absurd rfl hz
  | succ n => rfl

theorem PhiS1_any (c : Dev nD) (n : ℕ) (h : n ≤ cfg1.N) :
    PhiS1 V c n h ⊢ scrAny c := by
  cases n with
  | zero => exact (PhiA1_eq c).le
  | succ n =>
    unfold PhiS1 scrOwn scrAny
    iintro ⟨HS0, HS1, HS2, HR⟩
    iframe HR
    isplitl [HS0]; · iexists _; iexact HS0
    isplitl [HS1]; · iexists _; iexact HS1
    iexists _; iexact HS2

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl

theorem after1_0 : (dat1 V c).after 0 t = iblk1 V c 0 t := rfl
theorem after1_1 : (dat1 V c).after 1 t = iblk1 V c 1 t := rfl
theorem after1_2 : (dat1 V c).after 2 t = iblk1 V c 2 t := rfl

set_option maxHeartbeats 4000000 in

theorem body_obligation1 : BodyObligation (dat1 (F := F) V c) (defs₀ (F := F)) Variants.none () Set.univ := fun t => by
  rw [bigSep_W1, bigSep_W1]
  change _ ⊢ wp _ _ _ _ (fun _ => iprop(_ ∗ _ ∗ _ ∗ _ ∗ _ ∗ (dat1 V c).leavesExact 3 t))
  simp only [before1_0, before1_1, before1_2, after1_0, after1_1, after1_2]
  rw [show (dat1 V c).owesAt () t.succ = (dat1 V c).owesAt () t.castSucc from rfl,
    show (dat1 V c).Φ t.succ = scrOwn c (outsAt1 V c t.val t.isLt).2 from rfl,
    show (dat1 V c).Φ t.castSucc = PhiS1 V c t.val (Nat.le_of_lt t.isLt) from rfl]
  unfold scrOwn
  have hN : t.val < 16 := lt_of_lt_of_eq t.isLt (show cfg1.N = 16 from N_1)
  have c0 := hcond1_0 t
  have c1 := hcond1_1 t
  by_cases h0 : t.val % 8 = 0
  · have h1 : ¬t.val % 8 = 7 := by omega
    rw [Dat.leavesExact_idle (dat1 V c) 3 t (idleAt1_3_A t (c0.mpr h0) (mt c1.mp h1)) (noFlush1_3_A t (c0.mpr h0) (mt c1.mp h1)), outsAt1_A V c t h0]
    unfold soutA1; dsimp only
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    unfold scrAny
    icases HΦ' with ⟨HS0, HS1, HS2, HR⟩
    iapply ((runA1 V c t h0).2.2.2.2 ((dat1 V c).before 3 t d3) Set.univ _)
    iframe H0 H1 H2 H3 HS0 HS1 HS2
    iintro ⟨H0, H1, H2, H3, HS0, HS1, HS2⟩
    iframe HR Ho H0 H1 H2
    isplitr [H3]
    · isplitl [HS0]; · iapply (owns_of_cover0 c _ _ _ (scover1_A_0 V c t h0)); iexact HS0
      isplitl [HS1]; · iapply (owns_of_cover0 c _ _ _ (scover1_A_1 V c t h0)); iexact HS1
      iapply (owns_of_cover0 c _ _ _ (scover1_A_2 V c t h0)); iexact HS2
    iexists _; iexact H3
  · have hz : t.val ≠ 0 := by omega
    rw [PhiS1_pos V c _ _ hz]
    unfold scrOwn
    by_cases h1 : t.val % 8 = 7
    · rw [show (dat1 V c).leavesExact 3 t = owns (c : Thread nD τ) (ms1_3 t) fullShare ((dat1 V c).after 3 t) from by
          unfold Dat.leavesExact; rw [liveAt1_3_C t (mt c0.mp h0) (c1.mpr h1)],
        show (dat1 V c).after 3 t = (outsAt1 V c t.val t.isLt).1 from rfl, outsAt1_C V c t h0 h1]
      unfold outC1 soutC1; dsimp only
      iintro ⟨⟨HS0, HS1, HS2, HR⟩, Ho, ⟨%d0, H0⟩, ⟨%d1, H1⟩, ⟨%d2, H2⟩, ⟨%d3, H3⟩⟩
      iapply ((runC1 V c t h0 h1 _).2.2.2.2 Set.univ _)
      iframe H0 H1 H2 HS0 HS1 HS2
      isplitl [H3]; · iexists _; iexact H3
      iintro ⟨H0, H1, H2, H3, HS0, HS1, HS2⟩
      iframe HR Ho H0 H1 H2
      isplitr [H3]
      · isplitl [HS0]; · iapply (owns_of_cover0 c _ _ _ (scover1_C_0 V c t h0 h1 _)); iexact HS0
        isplitl [HS1]; · iapply (owns_of_cover0 c _ _ _ (scover1_C_1 V c t h0 h1 _)); iexact HS1
        iapply (owns_of_cover0 c _ _ _ (scover1_C_2 V c t h0 h1 _)); iexact HS2
      iapply (owns_of_cover0 c _ _ _ (cover1_C_3 V c t h0 h1 _)); iexact H3
    · rw [Dat.leavesExact_idle (dat1 V c) 3 t (idleAt1_3_B t (mt c0.mp h0) (mt c1.mp h1)) (noFlush1_3_B t (mt c0.mp h0) (mt c1.mp h1)), outsAt1_B V c t h0 h1]
      unfold soutB1; dsimp only
      iintro ⟨⟨HS0, HS1, HS2, HR⟩, Ho, ⟨%d0, H0⟩, ⟨%d1, H1⟩, ⟨%d2, H2⟩, ⟨%d3, H3⟩⟩
      iapply ((runB1 V c t h0 h1 _).2.2.2.2 ((dat1 V c).before 3 t d3) Set.univ _)
      iframe H0 H1 H2 H3 HS0 HS1 HS2
      iintro ⟨H0, H1, H2, H3, HS0, HS1, HS2⟩
      iframe HR Ho H0 H1 H2
      isplitr [H3]
      · isplitl [HS0]; · iapply (owns_of_cover0 c _ _ _ (scover1_B_0 V c t h0 h1 _)); iexact HS0
        isplitl [HS1]; · iapply (owns_of_cover0 c _ _ _ (scover1_B_1 V c t h0 h1 _)); iexact HS1
        iapply (owns_of_cover0 c _ _ _ (scover1_B_2 V c t h0 h1 _)); iexact HS2
      iexists _; iexact H3

theorem hin1 : Pipeline.ΦA spec1 c ⊢ (dat1 V c).Φ 0 := Idealize.SL.BI.Entails.refl _

theorem hout1 : (dat1 V c).Φ (Fin.last cfg1.N) ⊢ Pipeline.ΦA spec1 c := by
  rw [PhiA1_eq]
  exact PhiS1_any V c cfg1.N le_rfl

end Cert.Kernel.Gen

end
-- ==== Proof.K.Run.lean ====
import proofs.«420579_j54743653155312_3_alg».proof.Proof.K.R0Frame
import proofs.«420579_j54743653155312_3_alg».proof.Proof.K.R1Frame
import Idealize.ShloMosaic.Lib.Pipeline.RegionsLoop

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

abbrev hostOps0_W : List (Ref sig .tc) := [main_v0, main_v1]
abbrev hostOps1_W : List (Ref sig .tc) := [main_cst, main_v3, main_v4, main_cst_0, main_v5, main_v6, main_cst_1, main_v7, main_cst_2, main_v8, main_v9, main_v10, main_v11, main_v12, main_v13, main_v14, main_v15, main_v16, main_v17, main_v18, main_v19, main_v20, main_v21, main_v22, main_v23, main_v24, main_v25, main_v26]
abbrev hostOps2_W : List (Ref sig .tc) := [main_v28, main_v29, main_v30, main_v31, main_v32, main_v33, main_v34, main_v35, main_v36, main_v37, main_v38, main_v39, main_v40, main_v41, main_v42, main_cst_3, main_v43, main_cst_4, main_v44, main_cst_5, main_v45, main_cst_6, main_v46, main_cst_7, main_v47, main_cst_8, main_v48, main_v49, main_v50, main_cst_9, main_v51]

theorem hostOps0_writes : (hostOps0 : List (HloOp τ sig (Elt F))).Forall fun op => op.writes ⊆ (hostOps0_W.map (Proc.devRef (τ := τ) .tc)).toFinset := by
  simp only [List.Forall]; repeat' apply And.intro
  all_goals (simp only [StableHlo.reshape_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]; repeat' apply And.intro
  all_goals (simp only [StableHlo.nullary_writes, StableHlo.unary_writes, StableHlo.binary_writes, StableHlo.reshape_writes, StableHlo.nary_writes, Finset.singleton_subset_iff, List.mem_toFinset]; exact List.mem_map_of_mem (by decide))
theorem hostOps2_writes : (hostOps2 : List (HloOp τ sig (Elt F))).Forall fun op => op.writes ⊆ (hostOps2_W.map (Proc.devRef (τ := τ) .tc)).toFinset := by
  simp only [List.Forall]; repeat' apply And.intro
  all_goals (simp only [StableHlo.nullary_writes, StableHlo.unary_writes, StableHlo.binary_writes, StableHlo.reshape_writes, Finset.singleton_subset_iff, List.mem_toFinset]; exact List.mem_map_of_mem (by decide))

abbrev W0 : Dev nD → Valuation τ sig (Elt F) := fun c b => (s₀ m ρ).mem ((c : Dev nD), b)

abbrev W1 : Dev nD → Valuation τ sig (Elt F) := fun c => StableHlo.after hostOps0 (W0 m ρ c)
abbrev En0 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (En0 m ρ) c).arrAt w cfg0.N
theorem W2_arr (c : Dev nD) (w : Fin cfg0.W) :
    W2 m ρ c (Proc.devRef .tc (Pipeline.arrRef spec0 w)) = (dat0 (En0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev En1 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (En1 m ρ) c).arrAt w cfg1.N
theorem W4_arr (c : Dev nD) (w : Fin cfg1.W) :
    W4 m ρ c (Proc.devRef .tc (Pipeline.arrRef spec1 w)) = (dat1 (En1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)

theorem W5_keep (c : Dev nD) {r : Ref sig .tc}
    (e2 : W2 m ρ c (Proc.devRef .tc r) = W1 m ρ c (Proc.devRef .tc r)) (e4 : W4 m ρ c (Proc.devRef .tc r) = W3 m ρ c (Proc.devRef .tc r))
    (h0 : r ∉ hostOps0_W := by decide) (h1 : r ∉ hostOps1_W := by decide) (h2 : r ∉ hostOps2_W := by decide) :
    W5 m ρ c (Proc.devRef .tc r) = m ((c : Thread nD τ).loc r) :=
  (StableHlo.after_of_writes_sub hostOps2 _ hostOps2_writes h2).trans <| e4.trans <|
    (StableHlo.after_of_writes_sub hostOps1 _ hostOps1_writes h1).trans <| e2.trans <|
    StableHlo.after_of_writes_sub hostOps0 _ hostOps0_writes h0

def pdats : (p : Fin 2) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    iframe; iempintro
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En0 m ρ c) (fun b => W2 m ρ c b) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine BI.Entails.trans ?_ (hin1 (En1 m ρ) c)
    change (_ : sProp 𝕄) ⊢ _
    unfold Pipeline.ΦA
    iintro ⟨Hp, -, Hr⟩
    iframe
  hout c := by
    rw [Pipeline.ownSems0_none]
    refine BI.Entails.trans (hout1 (En1 m ρ) c) ?_
    change (_ : sProp 𝕄) ⊢ _
    unfold Pipeline.ΦA
    iintro ⟨Hr, Hp⟩
    iframe; iempintro
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En1 m ρ c) (fun b => W4 m ρ c b) ((pdats m ρ 1 c).arrAt · cfg1.N) (fun w => (W4_arr m ρ c w).symm)
      fun b hb => W4_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev msegs : List (Pipeline.Seg (pcfgs (F := F)) adm (pdats m ρ) () defs₀ 𝒱₀ L lv) :=
  [ .host (hseg hostOps0 hostOps0_sub (W0 m ρ)),
    .region (reg0 m ρ),
    .host (hseg hostOps1 hostOps1_sub (W2 m ρ)),
    .region (reg1 m ρ),
    .host (hseg hostOps2 hostOps2_sub (W4 m ρ)) ]

theorem main_run (c : Dev nD) : main (F := F) c = Pipeline.Seg.run (msegs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

theorem run_value : θ_run defs (onTc (τ := τ) (main (F := F))) ⟨m, fun _ => 0, ρ⟩ (fun r => ∀ c : Dev nD,
      r.2.mem ((c.tc : Thread nD τ).loc main_v51) = W5 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v51 (by decide)),
     (h c _ (mem_uc main_arg0 (by decide))).trans (W5_keep m ρ c ((W2_arr m ρ c 0).trans (((dat0 (En0 m ρ) c).arrAt_in 0 rfl _).trans (A_eq0 (En0 m ρ) c 0))) ((W4_arr m ρ c 0).trans (((dat1 (En1 m ρ) c).arrAt_in 0 rfl _).trans (A_eq1 (En1 m ρ) c 0)))),
     (h c _ (mem_uc main_arg1 (by decide))).trans (W5_keep m ρ c ((W2_arr m ρ c 1).trans (((dat0 (En0 m ρ) c).arrAt_in 1 rfl _).trans (A_eq0 (En0 m ρ) c 1))) ((W4_arr m ρ c 1).trans (((dat1 (En1 m ρ) c).arrAt_in 1 rfl _).trans (A_eq1 (En1 m ρ) c 1)))),
     (h c _ (mem_uc main_arg2 (by decide))).trans (W5_keep m ρ c (W2_of_ne m ρ c main_arg2 (by decide)) (W4_of_ne m ρ c main_arg2 (by decide))),
     (h c _ (mem_uc main_arg3 (by decide))).trans (W5_keep m ρ c (W2_of_ne m ρ c main_arg3 (by decide)) (W4_of_ne m ρ c main_arg3 (by decide)))⟩) (run_all m ρ)

end Cert.Kernel.Gen

end
-- ==== Proof.KI.Launch.lean ====
import proofs.«420579_j54743653155312_3_alg».proof.Proof.Gen.KernelIdeal
import Idealize.ShloMosaic.Lib.Pipeline.Kit
import Idealize.ShloMosaic.Lib.Pipeline.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev semTab : Fin 2 → List (DmaSem sig) :=
  fun | 0 => Pipeline.specSems spec0 | 1 => Pipeline.specSems spec1 | ⟨_ + 2, h⟩ => absurd h (Nat.not_lt.2 (Nat.le_add_left _ _))

theorem semsDistinct : ∀ p : Fin 2, (semTab p).Nodup := by decide

theorem semsDisjoint : ∀ p p' : Fin 2, p ≠ p' → (semTab p).Forall (· ∉ semTab p') := by decide

theorem cellOf_inj : Function.Injective (Pipeline.cellOf (nD := nD) (τ := τ) cfgs) :=
  Pipeline.cellOf_injective_of_table cfgs semTab (fun | 0 => rfl | 1 => rfl | ⟨_ + 2, h⟩ => absurd h (Nat.not_lt.2 (Nat.le_add_left _ _))) semsDistinct semsDisjoint

theorem winFacts0 : Pipeline.WinFacts spec0 := by decide

theorem block_pos0 : ∀ w : Fin 8, 0 < (spec0 w).block.numel := by decide

theorem arr_whole0 : ∀ w : Fin 8, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | ⟨_ + 8, h⟩ => absurd h (Nat.not_lt.2 (Nat.le_add_left _ _))
theorem stage_whole0 : ∀ (w : Fin 8) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | ⟨_ + 8, h⟩ => absurd h (Nat.not_lt.2 (Nat.le_add_left _ _))

theorem launch0 : Pipeline.LaunchFacts (nD := nD) (τ := τ) cfgs 0 := ⟨cellOf_inj, winFacts0, block_pos0, arr_whole0, stage_whole0⟩

theorem N_0 : grid0.N = 8 := by decide

theorem bigSep_W0 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

theorem winFacts1 : Pipeline.WinFacts spec1 := by decide

theorem block_pos1 : ∀ w : Fin 4, 0 < (spec1 w).block.numel := by decide

theorem arr_whole1 : ∀ w : Fin 4, (spec1 w).arr.IsWhole := fun | 0 => Memref.isWhole_whole _ | 1 => Memref.isWhole_whole _ | 2 => Memref.isWhole_whole _ | 3 => Memref.isWhole_whole _ | ⟨_ + 4, h⟩ => absurd h (Nat.not_lt.2 (Nat.le_add_left _ _))
theorem stage_whole1 : ∀ (w : Fin 4) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | ⟨_ + 4, h⟩ => absurd h (Nat.not_lt.2 (Nat.le_add_left _ _))

theorem launch1 : Pipeline.LaunchFacts (nD := nD) (τ := τ) cfgs 1 := ⟨cellOf_inj, winFacts1, block_pos1, arr_whole1, stage_whole1⟩

theorem N_1 : grid1.N = 16 := by decide

theorem bigSep_W1 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

abbrev hostOps0 : List (HloOp τ sig (Elt F)) :=
  [ StableHlo.reshape main_arg2 main_v0 rfl shapeCasts_S16384_S8x1x2048,
    StableHlo.reshape main_arg3 main_v1 rfl shapeCasts_S16384_S8x1x2048 ]

theorem hostOps0_sub : (hostOps0 : List (HloOp τ sig (Elt F))).Forall fun op => op.bufs ⊆ StableHlo.tcRefs τ sig :=
  ⟨StableHlo.reshape_bufs_sub .., StableHlo.reshape_bufs_sub ..⟩

abbrev hostOps1 : List (HloOp τ sig (Elt F)) :=
  [ StableHlo.nullary main_cst (constant S_ .f32 0x00000000#32),
    StableHlo.binary main_v2_1 main_cst main_v3 (fun x v => Host.reduceAdd x v reducesTo_S2x1x256_S1x256_d0 h_S_),
    StableHlo.reshape main_v3 main_v4 rfl shapeCasts_S1x256_S256,
    StableHlo.nullary main_cst_0 (constant S_ .f32 0x00000000#32),
    StableHlo.binary main_v2_3 main_cst_0 main_v5 (fun x v => Host.reduceAdd x v reducesTo_S2x1x256_S1x256_d0 h_S_),
    StableHlo.reshape main_v5 main_v6 rfl shapeCasts_S1x256_S256,
    StableHlo.nullary main_cst_1 (constant S_ .f32 0x00000000#32),
    StableHlo.binary main_v2_0 main_cst_1 main_v7 (fun x v => Host.reduceAdd x v reducesTo_S2x256x512_S256x512_d0 h_S_),
    StableHlo.nullary main_cst_2 (constant S_ .f32 0x00000000#32),
    StableHlo.binary main_v2_2 main_cst_2 main_v8 (fun x v => Host.reduceAdd x v reducesTo_S2x256x512_S256x512_d0 h_S_),
    StableHlo.unary main_v4 main_v9 (broadcastInDim S256x1 ![0] bcast_S256_S256x1_0),
    StableHlo.unary main_v9 main_v10 (broadcastInDim S256x512 ![0, 1] bcast_S256x1_S256x512_0_1),
    StableHlo.binary main_v7 main_v10 main_v11 Host.divf,
    StableHlo.unary main_v6 main_v12 (broadcastInDim S256x1 ![0] bcast_S256_S256x1_0),
    StableHlo.unary main_v12 main_v13 (broadcastInDim S256x512 ![0, 1] bcast_S256x1_S256x512_0_1),
    StableHlo.binary main_v8 main_v13 main_v14 Host.divf,
    StableHlo.binary main_v7 main_v8 main_v15 addf,
    StableHlo.binary main_v4 main_v6 main_v16 addf,
    StableHlo.unary main_v16 main_v17 (broadcastInDim S256x1 ![0] bcast_S256_S256x1_0),
    StableHlo.unary main_v17 main_v18 (broadcastInDim S256x512 ![0, 1] bcast_S256x1_S256x512_0_1),
    StableHlo.binary main_v15 main_v18 main_v19 Host.divf,
    StableHlo.unary main_v11 main_v20 (transpose S512x256 [1, 0] · transposes_S256x512_S512x256_1_0),
    StableHlo.unary main_v20 main_v21 (truncf .bf16 · bitsLt_bf16_f32),
    StableHlo.unary main_v14 main_v22 (transpose S512x256 [1, 0] · transposes_S256x512_S512x256_1_0),
    StableHlo.unary main_v22 main_v23 (truncf .bf16 · bitsLt_bf16_f32),
    StableHlo.unary main_v19 main_v24 (transpose S512x256 [1, 0] · transposes_S256x512_S512x256_1_0),
    StableHlo.unary main_v24 main_v25 (truncf .bf16 · bitsLt_bf16_f32),
    StableHlo.nary ![main_v21, main_v23, main_v25] main_v26 (fun u => concatenate S512x768 1 [⟨S512x256, u 0⟩, ⟨S512x256, u 1⟩, ⟨S512x256, u 2⟩] concatenates_S512x256_S512x256_S512x256_S512x768_d1) ]

theorem hostOps1_sub : (hostOps1 : List (HloOp τ sig (Elt F))).Forall fun op => op.bufs ⊆ StableHlo.tcRefs τ sig :=
  ⟨StableHlo.nullary_bufs_sub .., StableHlo.binary_bufs_sub .., StableHlo.reshape_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

abbrev hostOps2 : List (HloOp τ sig (Elt F)) :=
  [ StableHlo.unary main_v27 main_v28 (extractStridedSlice S1x1 ![0, 0] · slices_S16x128_S1x1_0_0),
    StableHlo.reshape main_v28 main_v29 rfl shapeCasts_S1x1_S_,
    StableHlo.unary main_v27 main_v30 (extractStridedSlice S1x1 ![8, 0] · slices_S16x128_S1x1_8_0),
    StableHlo.reshape main_v30 main_v31 rfl shapeCasts_S1x1_S_,
    StableHlo.binary main_v29 main_v31 main_v32 addf,
    StableHlo.unary main_v27 main_v33 (extractStridedSlice S1x1 ![0, 1] · slices_S16x128_S1x1_0_1),
    StableHlo.reshape main_v33 main_v34 rfl shapeCasts_S1x1_S_,
    StableHlo.unary main_v27 main_v35 (extractStridedSlice S1x1 ![8, 1] · slices_S16x128_S1x1_8_1),
    StableHlo.reshape main_v35 main_v36 rfl shapeCasts_S1x1_S_,
    StableHlo.binary main_v34 main_v36 main_v37 addf,
    StableHlo.unary main_v27 main_v38 (extractStridedSlice S1x1 ![0, 2] · slices_S16x128_S1x1_0_2),
    StableHlo.reshape main_v38 main_v39 rfl shapeCasts_S1x1_S_,
    StableHlo.unary main_v27 main_v40 (extractStridedSlice S1x1 ![8, 2] · slices_S16x128_S1x1_8_2),
    StableHlo.reshape main_v40 main_v41 rfl shapeCasts_S1x1_S_,
    StableHlo.binary main_v39 main_v41 main_v42 addf,
    StableHlo.nullary main_cst_3 (constant S_ .f32 0x3F000000#32),
    StableHlo.binary main_cst_3 main_v32 main_v43 mulf,
    StableHlo.nullary main_cst_4 (constant S_ .f32 0x4B000000#32),
    StableHlo.binary main_v43 main_cst_4 main_v44 Host.divf,
    StableHlo.nullary main_cst_5 (constant S_ .f32 0x3F000000#32),
    StableHlo.binary main_cst_5 main_v37 main_v45 mulf,
    StableHlo.nullary main_cst_6 (constant S_ .f32 0x4B000000#32),
    StableHlo.binary main_v45 main_cst_6 main_v46 Host.divf,
    StableHlo.nullary main_cst_7 (constant S_ .f32 0x3F000000#32),
    StableHlo.binary main_cst_7 main_v42 main_v47 mulf,
    StableHlo.nullary main_cst_8 (constant S_ .f32 0x4B000000#32),
    StableHlo.binary main_v47 main_cst_8 main_v48 Host.divf,
    StableHlo.binary main_v44 main_v46 main_v49 addf,
    StableHlo.binary main_v49 main_v48 main_v50 addf,
    StableHlo.nullary main_cst_9 (constant S_ .f32 0x40400000#32),
    StableHlo.binary main_v50 main_cst_9 main_v51 Host.divf ]

theorem hostOps2_sub : (hostOps2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub ..⟩

abbrev main_part0_ops2 : List (HloOp τ sig (Elt F)) := hostOps2.take 28

theorem main_part0_chain (c : Dev nD) : main_part0 (F := F) c = (Pipeline.chainK
  [ StableHlo.seq hostOps0,
    Prog.lift (.customCall (Pipeline.entry 0) ()),
    StableHlo.seq hostOps1,
    Prog.lift (.customCall (Pipeline.entry 1) ()) ]
  (StableHlo.seq main_part0_ops2) : Prog (TpuEff nD τ sig (Elt F) (Pipeline.Sig Λ₀ (Fin 2) fun p => (pcfgs (F := F) p).Adm) .tc) PUnit) := by
  chain_rfl

abbrev main_part1_ops0 : List (HloOp τ sig (Elt F)) := hostOps2.drop 28

theorem main_part1_chain (c : Dev nD) : main_part1 (F := F) c = (Pipeline.chain
  [ StableHlo.seq main_part1_ops0 ] : Prog (TpuEff nD τ sig (Elt F) (Pipeline.Sig Λ₀ (Fin 2) fun p => (pcfgs (F := F) p).Adm) .tc) PUnit) := by
  chain_rfl

theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2 ] : Prog (TpuEff nD τ sig (Elt F) (Pipeline.Sig Λ₀ (Fin 2) fun p => (pcfgs (F := F) p).Adm) .tc) PUnit) := by
  show (main_part0 (F := F) c >>= fun _ => main_part1 (F := F) c) = _
  rewrite [main_part1_chain, main_part0_chain, Pipeline.chainK_bind_chain]
  chain_rfl

end Cert.KernelIdeal.Gen

end
-- ==== Proof.KI.R0Runs.lean ====
import proofs.«420579_j54743653155312_3_alg».proof.Proof.KI.Launch
import proofs.«420579_j54743653155312_3_alg».proof.Proof.Gen.KernelIdeal.Skeleton
import proofs.«420579_j54743653155312_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

set_option maxHeartbeats 4000000 in

noncomputable def kernelRun0_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (arg9 : Memref sig .tc .vmem S1x1x256 .f32) (harg9 : arg9.IsWhole) (hc0 : cond0_0 i)
    (x0 : Vec F S2048x512 .f32) (x1 : Vec F S2048x512 .f32) (x2 : Vec F S1x1x2048 .i32) (x3 : Vec F S1x1x2048 .i32) :
    Σ' (L4 : List (View.Piece (Elt F) S1x256x512 .f32)) (L5 : List (View.Piece (Elt F) S1x1x256 .f32)) (L6 : List (View.Piece (Elt F) S1x256x512 .f32)), { L7 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]; swap; isplitl [H1]; swap; isplitl [H2]; swap; isplitl [H3]; swap
    isplitl [H4]; swap; isplitl [H5]; swap; isplitl [H6]; swap
    all_goals first | (iexists _; iassumption) | (iexists _; isplitr; (ipureintro; assumption); iassumption)

set_option maxHeartbeats 4000000 in

noncomputable def kernelRun0_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x256x512 .f32) (harg6 : arg6.IsWhole) (arg7 : Memref sig .tc .vmem S1x1x256 .f32) (harg7 : arg7.IsWhole) (arg8 : Memref sig .tc .vmem S1x256x512 .f32) (harg8 : arg8.IsWhole) (arg9 : Memref sig .tc .vmem S1x1x256 .f32) (harg9 : arg9.IsWhole) (hc0 : ¬cond0_0 i)
    (x0 : Vec F S2048x512 .f32) (x1 : Vec F S2048x512 .f32) (x2 : Vec F S1x1x2048 .i32) (x3 : Vec F S1x1x2048 .i32) (xo4 : Vec F S1x256x512 .f32) (xo5 : Vec F S1x1x256 .f32) (xo6 : Vec F S1x256x512 .f32) (xo7 : Vec F S1x1x256 .f32) :
    Σ' (L4 : List (View.Piece (Elt F) S1x256x512 .f32)) (L5 : List (View.Piece (Elt F) S1x1x256 .f32)) (L6 : List (View.Piece (Elt F) S1x256x512 .f32)), { L7 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc0)
    sl_step
    iapply Hk
    isplitl [H0]; swap; isplitl [H1]; swap; isplitl [H2]; swap; isplitl [H3]; swap
    isplitl [H4]; swap; isplitl [H5]; swap; isplitl [H6]; swap
    all_goals first | (iexists _; iassumption) | (iexists _; isplitr; (ipureintro; assumption); iassumption)

end Cert.KernelIdeal.Gen

end
-- ==== Proof.KI.R0Data.lean ====
import proofs.«420579_j54743653155312_3_alg».proof.Proof.KI.R0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO0_4 : View sig .tc .vmem S1x256x512 .f32 := (Memref.whole cc0_stg4_0 : Memref sig .tc .vmem S1x256x512 .f32).view

abbrev VO0_5 : View sig .tc .vmem S1x1x256 .f32 := (Memref.whole cc0_stg5_0 : Memref sig .tc .vmem S1x1x256 .f32).view

abbrev VO0_6 : View sig .tc .vmem S1x256x512 .f32 := (Memref.whole cc0_stg6_0 : Memref sig .tc .vmem S1x256x512 .f32).view

abbrev VO0_7 : View sig .tc .vmem S1x1x256 .f32 := (Memref.whole cc0_stg7_0 : Memref sig .tc .vmem S1x1x256 .f32).view

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)

abbrev Outs0 (F : FTy → Type) [FloatOps F] : Type := Vec F S1x256x512 .f32 × Vec F S1x1x256 .f32 × Vec F S1x256x512 .f32 × Vec F S1x1x256 .f32

def runA0 (c : Dev nD) (t : Fin cfg0.N) (h : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk0 V c 0 t) (iblk0 V c 1 t) (iblk0 V c 2 t) (iblk0 V c 3 t)

def runB0 (c : Dev nD) (t : Fin cfg0.N) (h : ¬t.val % 4 = 0) (p : Outs0 F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => h ((hcond0_0 t).mp hh)) (iblk0 V c 0 t) (iblk0 V c 1 t) (iblk0 V c 2 t) (iblk0 V c 3 t) p.1 p.2.1 p.2.2.1 p.2.2.2

theorem cover0_A_4 (c : Dev nD) (t : Fin cfg0.N) (h : t.val % 4 = 0) (y : S1x256x512.Idx) :
    ∃ pc ∈ (runA0 V c t h).1, y ∈ pc.1.set :=
  View.cover_of_tiledL _ S1x256x512.size (by unfold runA0; sl_kernel_rfl) y

theorem cover0_A_5 (c : Dev nD) (t : Fin cfg0.N) (h : t.val % 4 = 0) (y : S1x1x256.Idx) :
    ∃ pc ∈ (runA0 V c t h).2.1, y ∈ pc.1.set :=
  View.cover_of_tiledL _ S1x1x256.size (by unfold runA0; sl_kernel_rfl) y

theorem cover0_A_6 (c : Dev nD) (t : Fin cfg0.N) (h : t.val % 4 = 0) (y : S1x256x512.Idx) :
    ∃ pc ∈ (runA0 V c t h).2.2.1, y ∈ pc.1.set :=
  View.cover_of_tiledL _ S1x256x512.size (by unfold runA0; sl_kernel_rfl) y

theorem cover0_A_7 (c : Dev nD) (t : Fin cfg0.N) (h : t.val % 4 = 0) (y : S1x1x256.Idx) :
    ∃ pc ∈ (runA0 V c t h).2.2.2.1, y ∈ pc.1.set :=
  View.cover_of_tiledL _ S1x1x256.size (by unfold runA0; sl_kernel_rfl) y

def outA0 (c : Dev nD) (t : Fin cfg0.N) (h : t.val % 4 = 0) : Outs0 F :=
  (VO0_4.read (Elt F) (VO0_4.writes (Elt F) VO0_4.junk (runA0 V c t h).1),
   VO0_5.read (Elt F) (VO0_5.writes (Elt F) VO0_5.junk (runA0 V c t h).2.1),
   VO0_6.read (Elt F) (VO0_6.writes (Elt F) VO0_6.junk (runA0 V c t h).2.2.1),
   VO0_7.read (Elt F) (VO0_7.writes (Elt F) VO0_7.junk (runA0 V c t h).2.2.2.1))

theorem cover0_B_4 (c : Dev nD) (t : Fin cfg0.N) (h : ¬t.val % 4 = 0) (p : Outs0 F) (y : S1x256x512.Idx) :
    ∃ pc ∈ (runB0 V c t h p).1, y ∈ pc.1.set :=
  View.cover_of_tiledL _ S1x256x512.size (by unfold runB0; sl_kernel_rfl) y

theorem cover0_B_5 (c : Dev nD) (t : Fin cfg0.N) (h : ¬t.val % 4 = 0) (p : Outs0 F) (y : S1x1x256.Idx) :
    ∃ pc ∈ (runB0 V c t h p).2.1, y ∈ pc.1.set :=
  View.cover_of_tiledL _ S1x1x256.size (by unfold runB0; sl_kernel_rfl) y

theorem cover0_B_6 (c : Dev nD) (t : Fin cfg0.N) (h : ¬t.val % 4 = 0) (p : Outs0 F) (y : S1x256x512.Idx) :
    ∃ pc ∈ (runB0 V c t h p).2.2.1, y ∈ pc.1.set :=
  View.cover_of_tiledL _ S1x256x512.size (by unfold runB0; sl_kernel_rfl) y

theorem cover0_B_7 (c : Dev nD) (t : Fin cfg0.N) (h : ¬t.val % 4 = 0) (p : Outs0 F) (y : S1x1x256.Idx) :
    ∃ pc ∈ (runB0 V c t h p).2.2.2.1, y ∈ pc.1.set :=
  View.cover_of_tiledL _ S1x1x256.size (by unfold runB0; sl_kernel_rfl) y

def outB0 (c : Dev nD) (t : Fin cfg0.N) (h : ¬t.val % 4 = 0) (p : Outs0 F) : Outs0 F :=
  (VO0_4.read (Elt F) (VO0_4.writes (Elt F) VO0_4.junk (runB0 V c t h p).1),
   VO0_5.read (Elt F) (VO0_5.writes (Elt F) VO0_5.junk (runB0 V c t h p).2.1),
   VO0_6.read (Elt F) (VO0_6.writes (Elt F) VO0_6.junk (runB0 V c t h p).2.2.1),
   VO0_7.read (Elt F) (VO0_7.writes (Elt F) VO0_7.junk (runB0 V c t h p).2.2.2.1))

def outsAt0 (c : Dev nD) : (n : ℕ) → n < cfg0.N → Outs0 F
  | 0, hn => outA0 V c ⟨0, hn⟩ (Nat.zero_mod _)
  | n + 1, hn =>
    if h0 : (n + 1) % 4 = 0 then outA0 V c ⟨n + 1, hn⟩ h0
    else outB0 V c ⟨n + 1, hn⟩ h0 (outsAt0 c n (Nat.lt_of_succ_lt hn))

theorem outsAt0_A (c : Dev nD) (t : Fin cfg0.N) (h0 : t.val % 4 = 0) :
    outsAt0 V c t.val t.isLt = outA0 V c t h0 := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = outB0 V c t h0 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = (outsAt0 V c t.val t.isLt).1 := rfl
theorem after0_5 (c : Dev nD) (t : Fin cfg0.N) : (dat0 V c).after 5 t = (outsAt0 V c t.val t.isLt).2.1 := rfl
theorem after0_6 (c : Dev nD) (t : Fin cfg0.N) : (dat0 V c).after 6 t = (outsAt0 V c t.val t.isLt).2.2.1 := rfl
theorem after0_7 (c : Dev nD) (t : Fin cfg0.N) : (dat0 V c).after 7 t = (outsAt0 V c t.val t.isLt).2.2.2 := rfl
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem before0_kept (c : Dev nD) (w : Fin cfg0.W) (hw : (cfg0.win w).isOut = true)
    (hfl : ∀ t : Fin cfg0.N, (cfg0.win w).flush t = true ↔ t.val % 4 = 3) (hlive : ∀ i, cfg0.idle w i = false)
    (hclip : ∀ (i : cfg0.grid.Coords) a, (cfg0.win w).clip i a = none) (t : Fin cfg0.N) (h0 : ¬t.val % 4 = 0) (d) :
    (dat0 V c).before w t d = (dat0 V c).after w ⟨t.val - 1, Nat.lt_of_le_of_lt (Nat.sub_le _ _) t.isLt⟩ := by
  have hN : t.val < 8 := lt_of_lt_of_eq t.isLt (show cfg0.N = 8 from N_0)
  exact Dat.before_out_kept _ w hw t (by omega) (Bool.eq_false_iff.mpr fun h => by have := (hfl _).mp h; dsimp only at this; omega) hlive hclip d

theorem before0_4_B (c : Dev nD) (t : Fin cfg0.N) (h0 : ¬t.val % 4 = 0) (d) :
    (dat0 V c).before 4 t d = (outsAt0 V c (t.val - 1) (Nat.lt_of_le_of_lt (Nat.sub_le _ _) t.isLt)).1 :=
  (before0_kept V c 4 rfl flush0_4 (fun _ => rfl) (fun _ _ => rfl) t h0 d).trans rfl

theorem before0_5_B (c : Dev nD) (t : Fin cfg0.N) (h0 : ¬t.val % 4 = 0) (d) :
    (dat0 V c).before 5 t d = (outsAt0 V c (t.val - 1) (Nat.lt_of_le_of_lt (Nat.sub_le _ _) t.isLt)).2.1 :=
  (before0_kept V c 5 rfl flush0_5 (fun _ => rfl) (fun _ _ => rfl) t h0 d).trans rfl

theorem before0_6_B (c : Dev nD) (t : Fin cfg0.N) (h0 : ¬t.val % 4 = 0) (d) :
    (dat0 V c).before 6 t d = (outsAt0 V c (t.val - 1) (Nat.lt_of_le_of_lt (Nat.sub_le _ _) t.isLt)).2.2.1 :=
  (before0_kept V c 6 rfl flush0_6 (fun _ => rfl) (fun _ _ => rfl) t h0 d).trans rfl

theorem before0_7_B (c : Dev nD) (t : Fin cfg0.N) (h0 : ¬t.val % 4 = 0) (d) :
    (dat0 V c).before 7 t d = (outsAt0 V c (t.val - 1) (Nat.lt_of_le_of_lt (Nat.sub_le _ _) t.isLt)).2.2.2 :=
  (before0_kept V c 7 rfl flush0_7 (fun _ => rfl) (fun _ _ => rfl) t h0 d).trans rfl

end Cert.KernelIdeal.Gen

end
-- ==== Proof.KI.R0Frame.lean ====
import proofs.«420579_j54743653155312_3_alg».proof.Proof.KI.R0Data

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

-- Reading back a family of writes that covers every position does not depend on the contents underneath.
theorem owns_of_cover0 {sh : Shape} {e : EltTy} (c : Dev nD) (mr : Memref sig .tc .vmem sh e) (v' : View sig .tc .vmem sh e)
    (L : List (View.Piece (Elt F) sh e)) (hL : ∀ y, ∃ pc ∈ L, y ∈ pc.1.set) :
    (iprop(∃ f, mr.view.loc (c : Thread nD τ) ↦[mr.view.set]{fullShare} mr.view.writes (Elt F) f L) : sProp 𝕄)
      ⊢ owns (c : Thread nD τ) mr fullShare (v'.read (Elt F) (v'.writes (Elt F) v'.junk L)) := by
  unfold owns
  iintro ⟨%f, H⟩
  iexists _; isplitr
  swap; · iexact H
  ipureintro; exact View.read_writes_of_cover _ _ _ _ _ hL

set_option maxHeartbeats 4000000 in

theorem body_obligation0 : BodyObligation (dat0 (F := F) V c) (defs₀ (F := F)) Variants.none () Set.univ := fun t => by
  rw [bigSep_W0, bigSep_W0]
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  by_cases h0 : t.val % 4 = 0
  · rw [outsAt0_A V c t h0]
    unfold outA0; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA0 V c t h0).2.2.2.2 Set.univ _)
    iframe H0 H1 H2 H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    iframe HΦ Ho H0 H1 H2 H3
    isplitl [H4]; · iapply (owns_of_cover0 c _ _ _ (cover0_A_4 V c t h0)); iexact H4
    isplitl [H5]; · iapply (owns_of_cover0 c _ _ _ (cover0_A_5 V c t h0)); iexact H5
    isplitl [H6]; · iapply (owns_of_cover0 c _ _ _ (cover0_A_6 V c t h0)); iexact H6
    iapply (owns_of_cover0 c _ _ _ (cover0_A_7 V c t h0)); iexact H7
  · rw [outsAt0_B V c t h0]
    simp only [before0_4_B V c t h0, before0_5_B V c t h0, before0_6_B V c t h0, before0_7_B V c t h0]
    unfold outB0; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB0 V c t h0 _).2.2.2.2 Set.univ _)
    iframe H0 H1 H2 H3 H4 H5 H6 H7
    iintro ⟨H0, H1, H2, H3, H4, H5, H6, H7⟩
    iframe HΦ Ho H0 H1 H2 H3
    isplitl [H4]; · iapply (owns_of_cover0 c _ _ _ (cover0_B_4 V c t h0 _)); iexact H4
    isplitl [H5]; · iapply (owns_of_cover0 c _ _ _ (cover0_B_5 V c t h0 _)); iexact H5
    isplitl [H6]; · iapply (owns_of_cover0 c _ _ _ (cover0_B_6 V c t h0 _)); iexact H6
    iapply (owns_of_cover0 c _ _ _ (cover0_B_7 V c t h0 _)); iexact H7

end Cert.KernelIdeal.Gen

end
-- ==== Proof.KI.R1Runs.lean ====
import proofs.«420579_j54743653155312_3_alg».proof.Proof.KI.Launch
import proofs.«420579_j54743653155312_3_alg».proof.Proof.Gen.KernelIdeal.Skeleton
import proofs.«420579_j54743653155312_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

set_option maxHeartbeats 4000000 in

noncomputable def kernelRun1_A (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S512x768 .bf16) (harg4 : arg4.IsWhole) (arg5 : Memref sig .tc .vmem S8x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : cond1_0 i) (hc1 : ¬cond1_1 i)
    (x0 : Vec F S1024x512 .f32) (x1 : Vec F S1024x512 .f32) (x2 : Vec F S512x768 .bf16) :
    Σ' (L3 : List (View.Piece (Elt F) S8x128 .f32)) (LS0 : List (View.Piece (Elt F) S1x256 .f32)) (LS1 : List (View.Piece (Elt F) S1x256 .f32)), { LS2 : List (View.Piece (Elt F) S1x256 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; swap; isplitl [H1]; swap; isplitl [H2]; swap; isplitl [H3]; swap
    isplitl [HS0]; swap; isplitl [HS1]; swap
    all_goals first | (iexists _; iassumption) | (iexists _; isplitr; (ipureintro; assumption); iassumption)

set_option maxHeartbeats 4000000 in

noncomputable def kernelRun1_B (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S512x768 .bf16) (harg4 : arg4.IsWhole) (arg5 : Memref sig .tc .vmem S8x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond1_0 i) (hc1 : ¬cond1_1 i)
    (x0 : Vec F S1024x512 .f32) (x1 : Vec F S1024x512 .f32) (x2 : Vec F S512x768 .bf16) (xs0 : Vec F S1x256 .f32) (xs1 : Vec F S1x256 .f32) (xs2 : Vec F S1x256 .f32) :
    Σ' (L3 : List (View.Piece (Elt F) S8x128 .f32)) (LS0 : List (View.Piece (Elt F) S1x256 .f32)) (LS1 : List (View.Piece (Elt F) S1x256 .f32)), { LS2 : List (View.Piece (Elt F) S1x256 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]; swap; isplitl [H1]; swap; isplitl [H2]; swap; isplitl [H3]; swap
    isplitl [HS0]; swap; isplitl [HS1]; swap
    all_goals first | (iexists _; iassumption) | (iexists _; isplitr; (ipureintro; assumption); iassumption)

set_option maxHeartbeats 4000000 in

noncomputable def kernelRun1_C (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S512x768 .bf16) (harg4 : arg4.IsWhole) (arg5 : Memref sig .tc .vmem S8x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (hc0 : ¬cond1_0 i) (hc1 : cond1_1 i)
    (x0 : Vec F S1024x512 .f32) (x1 : Vec F S1024x512 .f32) (x2 : Vec F S512x768 .bf16) (xs0 : Vec F S1x256 .f32) (xs1 : Vec F S1x256 .f32) (xs2 : Vec F S1x256 .f32) :
    Σ' (L3 : List (View.Piece (Elt F) S8x128 .f32)) (LS0 : List (View.Piece (Elt F) S1x256 .f32)) (LS1 : List (View.Piece (Elt F) S1x256 .f32)), { LS2 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]; swap; isplitl [H1]; swap; isplitl [H2]; swap; isplitl [H3]; swap
    isplitl [HS0]; swap; isplitl [HS1]; swap
    all_goals first | (iexists _; iassumption) | (iexists _; isplitr; (ipureintro; assumption); iassumption)

end Cert.KernelIdeal.Gen

end
-- ==== Proof.KI.R1Frame.lean ====
import proofs.«420579_j54743653155312_3_alg».proof.Proof.KI.R1Runs
import proofs.«420579_j54743653155312_3_alg».proof.Proof.KI.R0Frame

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_3 : View sig .tc .vmem S8x128 .f32 := (Memref.whole cc1_stg3_0 : Memref sig .tc .vmem S8x128 .f32).view

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)

abbrev scM1_0 : Memref sig .tc .vmem S1x256 .f32 := Memref.whole cc1_scratch0
abbrev scM1_1 : Memref sig .tc .vmem S1x256 .f32 := Memref.whole cc1_scratch1
abbrev scM1_2 : Memref sig .tc .vmem S1x256 .f32 := Memref.whole cc1_scratch2

abbrev VS1_0 : View sig .tc .vmem S1x256 .f32 := scM1_0.view
abbrev VS1_1 : View sig .tc .vmem S1x256 .f32 := scM1_1.view
abbrev VS1_2 : View sig .tc .vmem S1x256 .f32 := scM1_2.view

abbrev Scr1 (F : FTy → Type) [FloatOps F] : Type := Vec F S1x256 .f32 × Vec F S1x256 .f32 × Vec F S1x256 .f32

def rest1 (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ ∃ r, prngReg c r)

theorem sep_eq (P Q : sProp 𝕄) : BI.sep P Q = iprop(P ∗ Q) := rfl
theorem sep_assoc_eq (P Q R : sProp 𝕄) : iprop((P ∗ Q) ∗ R) = iprop(P ∗ Q ∗ R) :=
  BI.equiv_iff.mp ⟨BI.sep_assoc, BI.sep_assoc'⟩

abbrev scrAny (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d) ∗ rest1 (F := F) c)

theorem PhiA1_eq (c : Dev nD) : (Pipeline.ΦA spec1 c : sProp 𝕄) = scrAny (F := F) c := by
  unfold scrAny Pipeline.ΦA rest1
  rw [Pipeline.scopedRest_split_of_list spec1 c [cc1_scratch0, cc1_scratch1, cc1_scratch2] (by decide) (by decide)]
  simp only [scM1_0, scM1_1, scM1_2, owns_whole, bigSepL_cons_cons, bigSepL_singleton, sep_eq, sep_assoc_eq]
  rfl

def runA1 (c : Dev nD) (t : Fin cfg1.N) (h0 : t.val % 8 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)

def runB1 (c : Dev nD) (t : Fin cfg1.N) (h0 : ¬t.val % 8 = 0) (h1 : ¬t.val % 8 = 7) (p : Scr1 F) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2

def runC1 (c : Dev nD) (t : Fin cfg1.N) (h0 : ¬t.val % 8 = 0) (h1 : t.val % 8 = 7) (p : Scr1 F) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2

variable (c : Dev nD) (t : Fin cfg1.N)

section
variable (h0 : t.val % 8 = 0) (y : S1x256.Idx)
theorem scover1_A_0 : ∃ pc ∈ (runA1 V c t h0).2.1, y ∈ pc.1.set :=
  View.cover_of_tiledL _ S1x256.size (by unfold runA1; sl_kernel_rfl) y
theorem scover1_A_1 : ∃ pc ∈ (runA1 V c t h0).2.2.1, y ∈ pc.1.set :=
  View.cover_of_tiledL _ S1x256.size (by unfold runA1; sl_kernel_rfl) y
theorem scover1_A_2 : ∃ pc ∈ (runA1 V c t h0).2.2.2.1, y ∈ pc.1.set :=
  View.cover_of_tiledL _ S1x256.size (by unfold runA1; sl_kernel_rfl) y
end

def soutA1 (c : Dev nD) (t : Fin cfg1.N) (h0 : t.val % 8 = 0) : Scr1 F :=
  (VS1_0.read (Elt F) (VS1_0.writes (Elt F) VS1_0.junk (runA1 V c t h0).2.1),
   VS1_1.read (Elt F) (VS1_1.writes (Elt F) VS1_1.junk (runA1 V c t h0).2.2.1),
   VS1_2.read (Elt F) (VS1_2.writes (Elt F) VS1_2.junk (runA1 V c t h0).2.2.2.1))

section
variable (h0 : ¬t.val % 8 = 0) (h1 : ¬t.val % 8 = 7) (p : Scr1 F) (y : S1x256.Idx)
theorem scover1_B_0 : ∃ pc ∈ (runB1 V c t h0 h1 p).2.1, y ∈ pc.1.set :=
  View.cover_of_tiledL _ S1x256.size (by unfold runB1; sl_kernel_rfl) y
theorem scover1_B_1 : ∃ pc ∈ (runB1 V c t h0 h1 p).2.2.1, y ∈ pc.1.set :=
  View.cover_of_tiledL _ S1x256.size (by unfold runB1; sl_kernel_rfl) y
theorem scover1_B_2 : ∃ pc ∈ (runB1 V c t h0 h1 p).2.2.2.1, y ∈ pc.1.set :=
  View.cover_of_tiledL _ S1x256.size (by unfold runB1; sl_kernel_rfl) y
end

def soutB1 (c : Dev nD) (t : Fin cfg1.N) (h0 : ¬t.val % 8 = 0) (h1 : ¬t.val % 8 = 7) (p : Scr1 F) : Scr1 F :=
  (VS1_0.read (Elt F) (VS1_0.writes (Elt F) VS1_0.junk (runB1 V c t h0 h1 p).2.1),
   VS1_1.read (Elt F) (VS1_1.writes (Elt F) VS1_1.junk (runB1 V c t h0 h1 p).2.2.1),
   VS1_2.read (Elt F) (VS1_2.writes (Elt F) VS1_2.junk (runB1 V c t h0 h1 p).2.2.2.1))

section
variable (h0 : ¬t.val % 8 = 0) (h1 : t.val % 8 = 7) (p : Scr1 F) (y : S1x256.Idx)
theorem scover1_C_0 : ∃ pc ∈ (runC1 V c t h0 h1 p).2.1, y ∈ pc.1.set :=
  View.cover_of_tiledL _ S1x256.size (by unfold runC1; sl_kernel_rfl) y
theorem scover1_C_1 : ∃ pc ∈ (runC1 V c t h0 h1 p).2.2.1, y ∈ pc.1.set :=
  View.cover_of_tiledL _ S1x256.size (by unfold runC1; sl_kernel_rfl) y
theorem scover1_C_2 : ∃ pc ∈ (runC1 V c t h0 h1 p).2.2.2.1, y ∈ pc.1.set :=
  View.cover_of_tiledL _ S1x256.size (by unfold runC1; sl_kernel_rfl) y
theorem cover1_C_3 (y : S8x128.Idx) : ∃ pc ∈ (runC1 V c t h0 h1 p).1, y ∈ pc.1.set :=
  View.cover_of_tiledL _ S8x128.size (by unfold runC1; sl_kernel_rfl) y
end

def soutC1 (c : Dev nD) (t : Fin cfg1.N) (h0 : ¬t.val % 8 = 0) (h1 : t.val % 8 = 7) (p : Scr1 F) : Scr1 F :=
  (VS1_0.read (Elt F) (VS1_0.writes (Elt F) VS1_0.junk (runC1 V c t h0 h1 p).2.1),
   VS1_1.read (Elt F) (VS1_1.writes (Elt F) VS1_1.junk (runC1 V c t h0 h1 p).2.2.1),
   VS1_2.read (Elt F) (VS1_2.writes (Elt F) VS1_2.junk (runC1 V c t h0 h1 p).2.2.2.1))

def outC1 (c : Dev nD) (t : Fin cfg1.N) (h0 : ¬t.val % 8 = 0) (h1 : t.val % 8 = 7) (p : Scr1 F) : Vec F S8x128 .f32 :=
  VO1_3.read (Elt F) (VO1_3.writes (Elt F) VO1_3.junk (runC1 V c t h0 h1 p).1)

def idleOut1 : Vec F S8x128 .f32 := VO1_3.read (Elt F) VO1_3.junk

def outsAt1 (c : Dev nD) : (n : ℕ) → n < cfg1.N → Vec F S8x128 .f32 × Scr1 F
  | 0, hn => (idleOut1, soutA1 V c ⟨0, hn⟩ (Nat.zero_mod _))
  | n + 1, hn =>
    if h0 : (n + 1) % 8 = 0 then (idleOut1, soutA1 V c ⟨n + 1, hn⟩ h0)
    else if h1 : (n + 1) % 8 = 7 then
      (outC1 V c ⟨n + 1, hn⟩ h0 h1 (outsAt1 c n (Nat.lt_of_succ_lt hn)).2, soutC1 V c ⟨n + 1, hn⟩ h0 h1 (outsAt1 c n (Nat.lt_of_succ_lt hn)).2)
    else (idleOut1, soutB1 V c ⟨n + 1, hn⟩ h0 h1 (outsAt1 c n (Nat.lt_of_succ_lt hn)).2)

theorem outsAt1_A (c : Dev nD) (t : Fin cfg1.N) (h0 : t.val % 8 = 0) :
    outsAt1 V c t.val t.isLt = (idleOut1, soutA1 V c t h0) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idleOut1, soutB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC1 V c t h0 h1 (outsAt1 V c (t.val - 1) (Nat.lt_of_le_of_lt (Nat.sub_le _ _) t.isLt)).2, soutC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

abbrev scrOwn (c : Dev nD) (p : Scr1 F) : sProp 𝕄 :=
  iprop(owns (c : Thread nD τ) scM1_0 fullShare p.1 ∗ owns (c : Thread nD τ) scM1_1 fullShare p.2.1 ∗ owns (c : Thread nD τ) scM1_2 fullShare p.2.2 ∗ rest1 (F := F) c)

def PhiS1 (c : Dev nD) : (n : ℕ) → n ≤ cfg1.N → sProp 𝕄
  | 0, _ => Pipeline.ΦA spec1 c
  | n + 1, hn => scrOwn c (outsAt1 V c n hn).2

theorem PhiS1_pos (c : Dev nD) (n : ℕ) (h : n ≤ cfg1.N) (hz : n ≠ 0) : PhiS1 V c n h = scrOwn c (outsAt1 V c (n - 1) (by omega)).2 := by
  cases n with
  | zero => exact absurd rfl hz
  | succ n => rfl

theorem PhiS1_any (c : Dev nD) (n : ℕ) (h : n ≤ cfg1.N) :
    PhiS1 V c n h ⊢ scrAny c := by
  cases n with
  | zero => exact (PhiA1_eq c).le
  | succ n =>
    unfold PhiS1 scrOwn scrAny
    iintro ⟨HS0, HS1, HS2, HR⟩
    iframe HR
    isplitl [HS0]; · iexists _; iexact HS0
    isplitl [HS1]; · iexists _; iexact HS1
    iexists _; iexact HS2

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl

theorem after1_0 : (dat1 V c).after 0 t = iblk1 V c 0 t := rfl
theorem after1_1 : (dat1 V c).after 1 t = iblk1 V c 1 t := rfl
theorem after1_2 : (dat1 V c).after 2 t = iblk1 V c 2 t := rfl

set_option maxHeartbeats 4000000 in

theorem body_obligation1 : BodyObligation (dat1 (F := F) V c) (defs₀ (F := F)) Variants.none () Set.univ := fun t => by
  rw [bigSep_W1, bigSep_W1]
  change _ ⊢ wp _ _ _ _ (fun _ => iprop(_ ∗ _ ∗ _ ∗ _ ∗ _ ∗ (dat1 V c).leavesExact 3 t))
  simp only [before1_0, before1_1, before1_2, after1_0, after1_1, after1_2]
  rw [show (dat1 V c).owesAt () t.succ = (dat1 V c).owesAt () t.castSucc from rfl,
    show (dat1 V c).Φ t.succ = scrOwn c (outsAt1 V c t.val t.isLt).2 from rfl,
    show (dat1 V c).Φ t.castSucc = PhiS1 V c t.val (Nat.le_of_lt t.isLt) from rfl]
  unfold scrOwn
  have hN : t.val < 16 := lt_of_lt_of_eq t.isLt (show cfg1.N = 16 from N_1)
  have c0 := hcond1_0 t
  have c1 := hcond1_1 t
  by_cases h0 : t.val % 8 = 0
  · have h1 : ¬t.val % 8 = 7 := by omega
    rw [Dat.leavesExact_idle (dat1 V c) 3 t (idleAt1_3_A t (c0.mpr h0) (mt c1.mp h1)) (noFlush1_3_A t (c0.mpr h0) (mt c1.mp h1)), outsAt1_A V c t h0]
    unfold soutA1; dsimp only
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    unfold scrAny
    icases HΦ' with ⟨HS0, HS1, HS2, HR⟩
    iapply ((runA1 V c t h0).2.2.2.2 ((dat1 V c).before 3 t d3) Set.univ _)
    iframe H0 H1 H2 H3 HS0 HS1 HS2
    iintro ⟨H0, H1, H2, H3, HS0, HS1, HS2⟩
    iframe HR Ho H0 H1 H2
    isplitr [H3]
    · isplitl [HS0]; · iapply (owns_of_cover0 c _ _ _ (scover1_A_0 V c t h0)); iexact HS0
      isplitl [HS1]; · iapply (owns_of_cover0 c _ _ _ (scover1_A_1 V c t h0)); iexact HS1
      iapply (owns_of_cover0 c _ _ _ (scover1_A_2 V c t h0)); iexact HS2
    iexists _; iexact H3
  · have hz : t.val ≠ 0 := by omega
    rw [PhiS1_pos V c _ _ hz]
    unfold scrOwn
    by_cases h1 : t.val % 8 = 7
    · rw [show (dat1 V c).leavesExact 3 t = owns (c : Thread nD τ) (ms1_3 t) fullShare ((dat1 V c).after 3 t) from by
          unfold Dat.leavesExact; rw [liveAt1_3_C t (mt c0.mp h0) (c1.mpr h1)],
        show (dat1 V c).after 3 t = (outsAt1 V c t.val t.isLt).1 from rfl, outsAt1_C V c t h0 h1]
      unfold outC1 soutC1; dsimp only
      iintro ⟨⟨HS0, HS1, HS2, HR⟩, Ho, ⟨%d0, H0⟩, ⟨%d1, H1⟩, ⟨%d2, H2⟩, ⟨%d3, H3⟩⟩
      iapply ((runC1 V c t h0 h1 _).2.2.2.2 Set.univ _)
      iframe H0 H1 H2 HS0 HS1 HS2
      isplitl [H3]; · iexists _; iexact H3
      iintro ⟨H0, H1, H2, H3, HS0, HS1, HS2⟩
      iframe HR Ho H0 H1 H2
      isplitr [H3]
      · isplitl [HS0]; · iapply (owns_of_cover0 c _ _ _ (scover1_C_0 V c t h0 h1 _)); iexact HS0
        isplitl [HS1]; · iapply (owns_of_cover0 c _ _ _ (scover1_C_1 V c t h0 h1 _)); iexact HS1
        iapply (owns_of_cover0 c _ _ _ (scover1_C_2 V c t h0 h1 _)); iexact HS2
      iapply (owns_of_cover0 c _ _ _ (cover1_C_3 V c t h0 h1 _)); iexact H3
    · rw [Dat.leavesExact_idle (dat1 V c) 3 t (idleAt1_3_B t (mt c0.mp h0) (mt c1.mp h1)) (noFlush1_3_B t (mt c0.mp h0) (mt c1.mp h1)), outsAt1_B V c t h0 h1]
      unfold soutB1; dsimp only
      iintro ⟨⟨HS0, HS1, HS2, HR⟩, Ho, ⟨%d0, H0⟩, ⟨%d1, H1⟩, ⟨%d2, H2⟩, ⟨%d3, H3⟩⟩
      iapply ((runB1 V c t h0 h1 _).2.2.2.2 ((dat1 V c).before 3 t d3) Set.univ _)
      iframe H0 H1 H2 H3 HS0 HS1 HS2
      iintro ⟨H0, H1, H2, H3, HS0, HS1, HS2⟩
      iframe HR Ho H0 H1 H2
      isplitr [H3]
      · isplitl [HS0]; · iapply (owns_of_cover0 c _ _ _ (scover1_B_0 V c t h0 h1 _)); iexact HS0
        isplitl [HS1]; · iapply (owns_of_cover0 c _ _ _ (scover1_B_1 V c t h0 h1 _)); iexact HS1
        iapply (owns_of_cover0 c _ _ _ (scover1_B_2 V c t h0 h1 _)); iexact HS2
      iexists _; iexact H3

theorem hin1 : Pipeline.ΦA spec1 c ⊢ (dat1 V c).Φ 0 := Idealize.SL.BI.Entails.refl _

theorem hout1 : (dat1 V c).Φ (Fin.last cfg1.N) ⊢ Pipeline.ΦA spec1 c := by
  rw [PhiA1_eq]
  exact PhiS1_any V c cfg1.N le_rfl

end Cert.KernelIdeal.Gen

end
-- ==== Proof.KI.Run.lean ====
import proofs.«420579_j54743653155312_3_alg».proof.Proof.KI.R0Frame
import proofs.«420579_j54743653155312_3_alg».proof.Proof.KI.R1Frame
import Idealize.ShloMosaic.Lib.Pipeline.RegionsLoop

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

abbrev hostOps0_W : List (Ref sig .tc) := [main_v0, main_v1]
abbrev hostOps1_W : List (Ref sig .tc) := [main_cst, main_v3, main_v4, main_cst_0, main_v5, main_v6, main_cst_1, main_v7, main_cst_2, main_v8, main_v9, main_v10, main_v11, main_v12, main_v13, main_v14, main_v15, main_v16, main_v17, main_v18, main_v19, main_v20, main_v21, main_v22, main_v23, main_v24, main_v25, main_v26]
abbrev hostOps2_W : List (Ref sig .tc) := [main_v28, main_v29, main_v30, main_v31, main_v32, main_v33, main_v34, main_v35, main_v36, main_v37, main_v38, main_v39, main_v40, main_v41, main_v42, main_cst_3, main_v43, main_cst_4, main_v44, main_cst_5, main_v45, main_cst_6, main_v46, main_cst_7, main_v47, main_cst_8, main_v48, main_v49, main_v50, main_cst_9, main_v51]

theorem hostOps0_writes : (hostOps0 : List (HloOp τ sig (Elt F))).Forall fun op => op.writes ⊆ (hostOps0_W.map (Proc.devRef (τ := τ) .tc)).toFinset := by
  simp only [List.Forall]; repeat' apply And.intro
  all_goals (simp only [StableHlo.reshape_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]; repeat' apply And.intro
  all_goals (simp only [StableHlo.nullary_writes, StableHlo.unary_writes, StableHlo.binary_writes, StableHlo.reshape_writes, StableHlo.nary_writes, Finset.singleton_subset_iff, List.mem_toFinset]; exact List.mem_map_of_mem (by decide))
theorem hostOps2_writes : (hostOps2 : List (HloOp τ sig (Elt F))).Forall fun op => op.writes ⊆ (hostOps2_W.map (Proc.devRef (τ := τ) .tc)).toFinset := by
  simp only [List.Forall]; repeat' apply And.intro
  all_goals (simp only [StableHlo.nullary_writes, StableHlo.unary_writes, StableHlo.binary_writes, StableHlo.reshape_writes, Finset.singleton_subset_iff, List.mem_toFinset]; exact List.mem_map_of_mem (by decide))

abbrev W0 : Dev nD → Valuation τ sig (Elt F) := fun c b => (s₀ m ρ).mem ((c : Dev nD), b)

abbrev W1 : Dev nD → Valuation τ sig (Elt F) := fun c => StableHlo.after hostOps0 (W0 m ρ c)
abbrev En0 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (En0 m ρ) c).arrAt w cfg0.N
theorem W2_arr (c : Dev nD) (w : Fin cfg0.W) :
    W2 m ρ c (Proc.devRef .tc (Pipeline.arrRef spec0 w)) = (dat0 (En0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev En1 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (En1 m ρ) c).arrAt w cfg1.N
theorem W4_arr (c : Dev nD) (w : Fin cfg1.W) :
    W4 m ρ c (Proc.devRef .tc (Pipeline.arrRef spec1 w)) = (dat1 (En1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)

theorem W5_keep (c : Dev nD) {r : Ref sig .tc}
    (e2 : W2 m ρ c (Proc.devRef .tc r) = W1 m ρ c (Proc.devRef .tc r)) (e4 : W4 m ρ c (Proc.devRef .tc r) = W3 m ρ c (Proc.devRef .tc r))
    (h0 : r ∉ hostOps0_W := by decide) (h1 : r ∉ hostOps1_W := by decide) (h2 : r ∉ hostOps2_W := by decide) :
    W5 m ρ c (Proc.devRef .tc r) = m ((c : Thread nD τ).loc r) :=
  (StableHlo.after_of_writes_sub hostOps2 _ hostOps2_writes h2).trans <| e4.trans <|
    (StableHlo.after_of_writes_sub hostOps1 _ hostOps1_writes h1).trans <| e2.trans <|
    StableHlo.after_of_writes_sub hostOps0 _ hostOps0_writes h0

def pdats : (p : Fin 2) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    iframe; iempintro
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En0 m ρ c) (fun b => W2 m ρ c b) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine BI.Entails.trans ?_ (hin1 (En1 m ρ) c)
    change (_ : sProp 𝕄) ⊢ _
    unfold Pipeline.ΦA
    iintro ⟨Hp, -, Hr⟩
    iframe
  hout c := by
    rw [Pipeline.ownSems0_none]
    refine BI.Entails.trans (hout1 (En1 m ρ) c) ?_
    change (_ : sProp 𝕄) ⊢ _
    unfold Pipeline.ΦA
    iintro ⟨Hr, Hp⟩
    iframe; iempintro
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En1 m ρ c) (fun b => W4 m ρ c b) ((pdats m ρ 1 c).arrAt · cfg1.N) (fun w => (W4_arr m ρ c w).symm)
      fun b hb => W4_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev msegs : List (Pipeline.Seg (pcfgs (F := F)) adm (pdats m ρ) () defs₀ 𝒱₀ L lv) :=
  [ .host (hseg hostOps0 hostOps0_sub (W0 m ρ)),
    .region (reg0 m ρ),
    .host (hseg hostOps1 hostOps1_sub (W2 m ρ)),
    .region (reg1 m ρ),
    .host (hseg hostOps2 hostOps2_sub (W4 m ρ)) ]

theorem main_run (c : Dev nD) : main (F := F) c = Pipeline.Seg.run (msegs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

theorem run_value : θ_run defs (onTc (τ := τ) (main (F := F))) ⟨m, fun _ => 0, ρ⟩ (fun r => ∀ c : Dev nD,
      r.2.mem ((c.tc : Thread nD τ).loc main_v51) = W5 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v51 (by decide)),
     (h c _ (mem_uc main_arg0 (by decide))).trans (W5_keep m ρ c ((W2_arr m ρ c 0).trans (((dat0 (En0 m ρ) c).arrAt_in 0 rfl _).trans (A_eq0 (En0 m ρ) c 0))) ((W4_arr m ρ c 0).trans (((dat1 (En1 m ρ) c).arrAt_in 0 rfl _).trans (A_eq1 (En1 m ρ) c 0)))),
     (h c _ (mem_uc main_arg1 (by decide))).trans (W5_keep m ρ c ((W2_arr m ρ c 1).trans (((dat0 (En0 m ρ) c).arrAt_in 1 rfl _).trans (A_eq0 (En0 m ρ) c 1))) ((W4_arr m ρ c 1).trans (((dat1 (En1 m ρ) c).arrAt_in 1 rfl _).trans (A_eq1 (En1 m ρ) c 1)))),
     (h c _ (mem_uc main_arg2 (by decide))).trans (W5_keep m ρ c (W2_of_ne m ρ c main_arg2 (by decide)) (W4_of_ne m ρ c main_arg2 (by decide))),
     (h c _ (mem_uc main_arg3 (by decide))).trans (W5_keep m ρ c (W2_of_ne m ρ c main_arg3 (by decide)) (W4_of_ne m ρ c main_arg3 (by decide)))⟩) (run_all m ρ)

end Cert.KernelIdeal.Gen

end
-- ==== Proof.KI.Val0Piece.lean ====
import proofs.«420579_j54743653155312_3_alg».proof.Proof.KI.R0Data
import Idealize.ShloMosaic.Lib.QrPanel.Panel

noncomputable section

namespace Cert.KernelIdeal.Val0

open Cert.KernelIdeal.Gen Idealize.ShloMosaic Idealize.ShloMosaic.TcCoe Idealize.ShloMosaic.Tactic Idealize.SL.Sem QrPanel.Panel

variable {F : FTy → Type} [FloatOps F]
variable (V : (c : Dev nD) → (b : Ref sig .tc) → Buf (Elt F) ((c : Thread nD τ).loc b))

def step (c : Dev nD) (t : Fin cfg0.N) (p : Outs0 F) : Outs0 F :=
  (k0_pay10 (iblk0 V c 2 t) (iblk0 V c 0 t) p.1, k0_pay11 (iblk0 V c 2 t) p.2.1,
   k0_pay10 (iblk0 V c 3 t) (iblk0 V c 1 t) p.2.2.1, k0_pay11 (iblk0 V c 3 t) p.2.2.2)

def zeros : Outs0 F := (k0_pay4, k0_pay5, k0_pay4, k0_pay5)

theorem outA0_eq (c : Dev nD) (t : Fin cfg0.N) (h : t.val % 4 = 0) : outA0 V c t h = step V c t zeros := by
  refine (congrArg₂ Prod.mk (View.read_writes_eq_canon _ _ _ (cover0_A_4 V c t h)) (congrArg₂ Prod.mk (View.read_writes_eq_canon _ _ _ (cover0_A_5 V c t h))
    (congrArg₂ Prod.mk (View.read_writes_eq_canon _ _ _ (cover0_A_6 V c t h)) (View.read_writes_eq_canon _ _ _ (cover0_A_7 V c t h))))).trans ?_
  unfold runA0 kernelRun0_A
  dsimp only
  sl_unfold_words
  simp only [View.canon_cons_unit_zero (S := S1x256x512) zeros3, View.readCov_unit_zero (S := S1x256x512) _ zeros3,
    View.canon_cons_unit_zero (S := S1x1x256) zeros3, View.readCov_unit_zero (S := S1x1x256) _ zeros3,
    View.readAt_eq_ld, Memref.IsWhole.read_unread, View.ld_unit_zero (S := S1x1x2048) zeros3,
    View.ld_unit_zero (S := S2048x512) zeros2]
  rfl

theorem outB0_eq (c : Dev nD) (t : Fin cfg0.N) (h : ¬t.val % 4 = 0) (p : Outs0 F) : outB0 V c t h p = step V c t p := by
  refine (congrArg₂ Prod.mk (View.read_writes_eq_canon _ _ _ (cover0_B_4 V c t h p)) (congrArg₂ Prod.mk (View.read_writes_eq_canon _ _ _ (cover0_B_5 V c t h p))
    (congrArg₂ Prod.mk (View.read_writes_eq_canon _ _ _ (cover0_B_6 V c t h p)) (View.read_writes_eq_canon _ _ _ (cover0_B_7 V c t h p))))).trans ?_
  unfold runB0 kernelRun0_B
  dsimp only
  sl_unfold_words
  simp only [View.canon_unit_zero (S := S1x256x512) zeros3, View.canon_unit_zero (S := S1x1x256) zeros3,
    View.readAt_eq_ld, Memref.IsWhole.read_unread,
    View.ld_unit_zero (S := S1x1x2048) zeros3, View.ld_unit_zero (S := S2048x512) zeros2,
    View.ld_unit_zero (S := S1x256x512) zeros3, View.ld_unit_zero (S := S1x1x256) zeros3]
  rfl

end Cert.KernelIdeal.Val0

end
-- ==== Proof.LibDot.lean ====
import Idealize.ShloMosaic.Lib.StackMember
import Idealize.ShloMosaic.Lib.KernelVsHost

noncomputable section

namespace Cert.LibDot

open Idealize.ShloMosaic Idealize.ShloMosaic.ValueIdx

variable {M K N : Nat} (D : DotDims ⟨2, ![M, K]⟩ ⟨2, ![K, N]⟩ ⟨2, ![M, N]⟩) {φ₁ φ₂ : FTy}
  (hlc : D.lhsContracting = [1]) (hrc : D.rhsContracting = [0]) (hln : D.lhsNonContracting = [0])
  (hrn : D.rhsNonContracting = [1]) (hlb : D.lhsBatch = []) (hrb : D.rhsBatch = []) (prec : Option ContractPrecision)
  (l : FVec Ideal ⟨2, ![M, K]⟩ φ₁) (r : FVec Ideal ⟨2, ![K, N]⟩ φ₂) (a : Fin M) (b : Fin N)

include hlc hrc hln hrn hlb hrb

theorem dotGeneral_plain_apply : Host.dotGeneral D prec l r (ix2 a b) = ∑ k : Fin K, l (ix2 a k) * r (ix2 k b) := by
  obtain ⟨_, _, _, _, _, _, _⟩ := D
  subst hlc hrc hln hrn hlb hrb
  exact StackMember.dotGeneral_plain_apply prec l r a b

theorem matmul_plain_apply :
    matmul D prec l r (constant ⟨2, ![M, N]⟩ .f32 0x00000000#32) (ix2 a b) = ∑ k : Fin K, l (ix2 a k) * r (ix2 k b) := by
  rw [matmul_zero_eq_dotGeneral]
  exact dotGeneral_plain_apply D hlc hrc hln hrn hlb hrb prec l r a b

end Cert.LibDot

end
-- ==== Proof.LibDotNT.lean ====
import Idealize.ShloMosaic.PureOps.Ideal.Laws
import Idealize.ShloMosaic.Lib.ValueIdx

noncomputable section

namespace Cert.LibDotNT

open Idealize.ShloMosaic Idealize.ShloMosaic.ValueIdx

theorem matmul_nt_apply {M K N : Nat} (D : DotDims ⟨2, ![M, K]⟩ ⟨2, ![N, K]⟩ ⟨2, ![M, N]⟩) {φ₁ φ₂ : FTy}
    (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  obtain ⟨_, _, _, _, _, _, w⟩ := D
  subst hlc hrc hln hrn hlb hrb
  show FloatOps.matmul _ prec l r _ (ix2 a b) = _
  rw [Ideal.matmul_constant_zero_apply, ← Equiv.sum_comp (contrEquiv1 _ K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  congr 2 <;> funext ax <;> apply Fin.ext <;> fin_cases ax <;> simp [DotDims.lhsIdx, DotDims.rhsIdx] <;> first | rfl | exact c2

end Cert.LibDotNT

end
-- ==== Proof.KI.Val0Pay.lean ====
import proofs.«420579_j54743653155312_3_alg».proof.Proof.Gen.KernelIdeal.Skeleton
import proofs.«420579_j54743653155312_3_alg».proof.Proof.LibDot
import proofs.«420579_j54743653155312_3_alg».proof.Proof.LibDotNT
import Idealize.ShloMosaic.Lib.Pipeline.Value
import Idealize.ShloMosaic.Lib.IdealHost

noncomputable section

namespace Cert.KernelIdeal.Val0

open Cert.KernelIdeal.Gen Idealize.ShloMosaic Idealize.ShloMosaic.ValueIdx

-- The bit of an equality test of two words, widened and converted, is the indicator of the equality.
theorem onehot_word (a b : BitVec 32) :
    (FloatOps.sitofp (F := Ideal) .f32 ((IntOp.cmpi .eq a b).setWidth 32) : EReal) = if a = b then 1 else 0 := by
  show (((BitVec.setWidth 32 (BitVec.ofBool (a == b))).toInt : ℝ) : EReal) = _
  by_cases h : a = b
  · rw [if_pos h, show (a == b) = true from by simp [h]]
    show (((1 : ℤ) : ℝ) : EReal) = 1
    simp
  · rw [if_neg h, show (a == b) = false from by simp [h]]
    show (((0 : ℤ) : ℝ) : EReal) = 0
    simp

-- A block with a leading unit axis and the same block without it have the same entries.
theorem drop_lead {m n : Nat} {α : Type} (x : (⟨3, ![1, m, n]⟩ : Shape).Idx → α)
    (h : (⟨3, ![1, m, n]⟩ : Shape).ShapeCasts ⟨2, ![m, n]⟩) (a : Fin m) (b : Fin n) :
    shapeCast ⟨2, ![m, n]⟩ x h (ix2 a b) = x (ix3 (0 : Fin 1) a b) :=
  (shapeCast_dropUnit_apply _ x h _).trans (congrArg x (funext fun i => match i with | ⟨0, _⟩ => rfl | ⟨1, _⟩ => rfl | ⟨2, _⟩ => rfl))

theorem add_lead {m n : Nat} {α : Type} (x : (⟨2, ![m, n]⟩ : Shape).Idx → α)
    (h : (⟨2, ![m, n]⟩ : Shape).ShapeCasts ⟨3, ![1, m, n]⟩) (a : Fin m) (b : Fin n) :
    shapeCast ⟨3, ![1, m, n]⟩ x h (ix3 (0 : Fin 1) a b) = x (ix2 a b) :=
  (shapeCast_addUnit_apply _ x h _).trans (congrArg x (Shape.idx_ext₂ rfl rfl))

theorem onehot_apply (lab : Vec Ideal S1x1x2048 .i32) (k : Fin 256) (r : Fin 2048) :
    (k0_pay9 (F := Ideal) lab (ix2 k r) : EReal) = if lab (ix3 (0 : Fin 1) (0 : Fin 1) r) = BitVec.ofNat 32 k.val then 1 else 0 := by
  refine (onehot_word _ _).trans ?_
  rw [show broadcastTo S256x2048 (shapeCast S1x2048 lab shapeCasts_S1x1x2048_S1x2048) broadcasts_S1x2048_S256x2048 (ix2 k r)
      = lab (ix3 (0 : Fin 1) (0 : Fin 1) r) from
    (broadcastTo_apply _ _ (ix2 k r) (ix2 (0 : Fin 1) r) fun a => match a with | ⟨0, _⟩ => rfl | ⟨1, _⟩ => rfl).trans
      (drop_lead lab _ 0 r),
    iota_single_apply .tc S256x2048 32 0 iota_S256x2048_d0_w32 (ix2 k r)]

theorem pay10_apply (lab : Vec Ideal S1x1x2048 .i32) (feats : Vec Ideal S2048x512 .f32) (prev : Vec Ideal S1x256x512 .f32)
    (k : Fin 256) (d : Fin 512) :
    (k0_pay10 (F := Ideal) lab feats prev (ix3 (0 : Fin 1) k d) : EReal)
      = prev (ix3 (0 : Fin 1) k d) + ∑ r : Fin 2048, if lab (ix3 (0 : Fin 1) (0 : Fin 1) r) = BitVec.ofNat 32 k.val then feats (ix2 r d) else 0 := by
  refine (add_lead _ _ k d).trans ((addf_apply _ _ (ix2 k d)).trans (congrArg₂ (· + ·) (drop_lead prev _ k d) ?_))
  refine (Cert.LibDot.matmul_plain_apply dot_S256x2048_S2048x512_S256x512_1_0_0_1_n_n rfl rfl rfl rfl rfl rfl none _ _ k d).trans
    (Finset.sum_congr rfl fun r _ => ?_)
  rw [onehot_apply, ite_mul, one_mul, zero_mul]
  rfl

-- The counts' update: at (0, 0, k) the block's entry plus the number of the tile's labels equal to k.
theorem pay11_apply (lab : Vec Ideal S1x1x2048 .i32) (prev : Vec Ideal S1x1x256 .f32) (k : Fin 256) :
    (k0_pay11 (F := Ideal) lab prev (ix3 (0 : Fin 1) (0 : Fin 1) k) : EReal)
      = prev (ix3 (0 : Fin 1) (0 : Fin 1) k) + ∑ r : Fin 2048, if lab (ix3 (0 : Fin 1) (0 : Fin 1) r) = BitVec.ofNat 32 k.val then 1 else 0 := by
  refine (add_lead _ _ 0 k).trans ((addf_apply _ _ (ix2 0 k)).trans (congrArg₂ (· + ·) (drop_lead prev _ 0 k) ?_))
  refine (Cert.LibDotNT.matmul_nt_apply dot_S1x2048_S256x2048_S1x256_1_1_0_0_n_n rfl rfl rfl rfl rfl rfl none
    (k0_pay8 (F := Ideal)) (k0_pay9 (F := Ideal) lab) (0 : Fin 1) k).trans (Finset.sum_congr rfl fun r _ => ?_)
  rw [onehot_apply, show (k0_pay8 (F := Ideal) (ix2 (0 : Fin 1) r) : EReal) = 1 from Ideal.ofBits_one_bf16, one_mul]

-- The blocks a row's first point stores before its update hold zeros.
theorem pay4_apply (j : S1x256x512.Idx) : (k0_pay4 (F := Ideal) j : EReal) = 0 := Ideal.ofBits_zero_f32

theorem pay5_apply (j : S1x1x256.Idx) : (k0_pay5 (F := Ideal) j : EReal) = 0 := Ideal.ofBits_zero_f32

end Cert.KernelIdeal.Val0

end
-- ==== Proof.KLMath.lean ====
import Idealize.ShloMosaic.PureOps.Ideal

noncomputable section

namespace Cert.KLMath

open Idealize.ShloMosaic

variable {ι : Type} [Fintype ι]

def rowMax (x : ι → EReal) : EReal := (Finset.univ : Finset ι).fold max (⊥ : EReal) x

def shift (x : ι → EReal) (k : ι) : EReal := x k - rowMax x

def denom (x : ι → EReal) : EReal := ∑ k, Ideal.exp (shift x k)

def lsm (x : ι → EReal) (k : ι) : EReal := shift x k - Ideal.log (denom x)

def sm (x : ι → EReal) (k : ι) : EReal := Ideal.exp (shift x k) * Ideal.div 1 (denom x)

-- Off ⊤ the exponential is a nonnegative real, zero only at ⊥.
theorem exp_real {a : EReal} (h : a ≠ ⊤) : ∃ e : ℝ, 0 ≤ e ∧ Ideal.exp a = e ∧ (e = 0 → a = ⊥) := by
  induction a with
  | bot => exact ⟨0, le_rfl, rfl, fun _ => rfl⟩
  | coe r => exact ⟨Real.exp r, (Real.exp_pos r).le, rfl, fun h0 => absurd h0 (Real.exp_pos r).ne'⟩
  | top => exact absurd rfl h

-- An entry is at most the row's largest, so a shifted entry is ⊥ or a real.
theorem shift_ne_top (x : ι → EReal) (k : ι) : shift x k ≠ ⊤ := by
  have h : x k ≤ rowMax x := (Finset.le_fold_max _).mpr (Or.inr ⟨k, Finset.mem_univ k, le_rfl⟩)
  unfold shift
  generalize rowMax x = b, x k = a at h
  induction b <;> induction a <;> simp_all [EReal.sub_top, EReal.bot_sub, ← EReal.coe_sub]

-- Either every shifted entry is ⊥, or the denominator is a positive real.
theorem denom_cases (x : ι → EReal) : (∀ k, shift x k = ⊥) ∨ ∃ s : ℝ, 0 < s ∧ denom x = (s : EReal) := by
  choose e he0 hee hez using fun k => exp_real (shift_ne_top x k)
  have hd : denom x = ((∑ k, e k : ℝ) : EReal) := (Finset.sum_congr rfl fun k _ => hee k).trans
    (map_sum (⟨⟨Real.toEReal, EReal.coe_zero⟩, EReal.coe_add⟩ : ℝ →+ EReal) e Finset.univ).symm
  rcases (Finset.sum_nonneg fun k _ => he0 k).eq_or_lt with h0 | hpos
  · exact .inl fun k => hez k ((Finset.sum_eq_zero_iff_of_nonneg fun k _ => he0 k).mp h0.symm k (Finset.mem_univ k))
  · exact .inr ⟨_, hpos, hd⟩

-- The log-softmax entry is never ⊤, and the softmax entry is its exponential: on every row of extended reals.
theorem lsm_sm (x : ι → EReal) (k : ι) : lsm x k ≠ ⊤ ∧ sm x k = Ideal.exp (lsm x k) := by
  unfold sm lsm
  rcases denom_cases x with hb | ⟨s, hs, hd⟩
  · rw [hb k]; simp [EReal.bot_sub]
  · rw [hd, Ideal.div_coe hs.ne', Ideal.log_coe, if_neg hs.not_ge]
    have hne := shift_ne_top x k
    generalize shift x k = a at hne
    induction a with
    | bot => simp [EReal.bot_sub]
    | coe z =>
      rw [one_mul, ← EReal.coe_sub, Ideal.exp_coe, Ideal.exp_coe, ← EReal.coe_mul, Real.exp_sub, Real.exp_log hs]
      exact ⟨EReal.coe_ne_top _, congrArg _ (by ring)⟩
    | top => exact absurd rfl hne

-- (b − a)(eᵇ − eᵃ) = eᵇ (b − a) + eᵃ (a − b) off ⊤: a ring identity on two reals, ⊤ = ⊤ with ⊥ on one side, 0 = 0 on both.
theorem kl_scalar {a b : EReal} (ha : a ≠ ⊤) (hb : b ≠ ⊤) :
    (b - a) * (Ideal.exp b - Ideal.exp a) = Ideal.exp b * (b - a) + Ideal.exp a * (a - b) := by
  induction a <;> induction b <;> try contradiction
  · simp [EReal.bot_sub]
  · simp [EReal.top_mul_coe_of_pos, EReal.coe_mul_top_of_pos, Real.exp_pos]
  · simp [EReal.bot_sub, EReal.coe_mul_top_of_pos, ← EReal.coe_neg, EReal.bot_mul_coe_of_neg, Real.exp_pos]
  · simp only [Ideal.exp_coe]
    norm_cast
    ring

theorem kl_term (x y : ι → EReal) (k : ι) :
    (lsm y k - lsm x k) * (sm y k - sm x k)
      = Ideal.exp (lsm y k) * (lsm y k - lsm x k) + Ideal.exp (lsm x k) * (lsm x k - lsm y k) := by
  rw [(lsm_sm x k).2, (lsm_sm y k).2]
  exact kl_scalar (lsm_sm x k).1 (lsm_sm y k).1

-- Multiplying by a positive real distributes over a sum of two extended reals.
theorem half_div_add (a b : EReal) (h T : ℝ) (hh : 0 < h) (hT : 0 < T) :
    Ideal.div ((h : EReal) * (a + b)) (T : EReal) = (h : EReal) * (Ideal.div a (T : EReal) + Ideal.div b (T : EReal)) := by
  have hc : (0 : ℝ) < 1 / T := one_div_pos.mpr hT
  rw [Ideal.div_coe hT.ne', Ideal.div_coe hT.ne', Ideal.div_coe hT.ne', mul_assoc,
    EReal.right_distrib_of_nonneg_of_ne_top (EReal.coe_nonneg.mpr hc.le) (EReal.coe_ne_top _)]

end Cert.KLMath

end
-- ==== Proof.Spec.lean ====
import proofs.«420579_j54743653155312_3_alg».proof.Proof.KLMath

noncomputable section

namespace Cert.Spec

open Idealize.ShloMosaic Cert.KLMath

abbrev Feat : Type := Fin 16384 → Fin 512 → EReal

abbrev Lab : Type := Fin 16384 → BitVec 32

abbrev Cent : Type := Fin 256 → Fin 512 → EReal

def segSum (f : Feat) (l : Lab) : Cent := fun k d => ∑ n : Fin 16384, if l n = BitVec.ofNat 32 k.val then f n d else 0

def segCnt (l : Lab) : Fin 256 → EReal := fun k => ∑ n : Fin 16384, if l n = BitVec.ofNat 32 k.val then (1 : EReal) else 0

def cent (s : Cent) (n : Fin 256 → EReal) : Cent := fun k d => Ideal.div (s k d) (n k)

def uS (fs : Feat) (ls : Lab) : Cent := cent (segSum fs ls) (segCnt ls)
def uT (ft : Feat) (lt : Lab) : Cent := cent (segSum ft lt) (segCnt lt)
def uST (fs ft : Feat) (ls lt : Lab) : Cent :=
  cent (fun k d => segSum fs ls k d + segSum ft lt k d) (fun k => segCnt ls k + segCnt lt k)

def logit (u : Cent) (x : Fin 512 → EReal) : Fin 256 → EReal := fun k => ∑ d : Fin 512, x d * u k d

/-- Symmetrised Kullback–Leibler summand (log q − log p)(q − p) of a row at class k, p and q the softmaxes against tables a and b. -/
def term (a b : Cent) (x : Fin 512 → EReal) (k : Fin 256) : EReal :=
  (lsm (logit b x) k - lsm (logit a x) k) * (sm (logit b x) k - sm (logit a x) k)

def pair (a b : Cent) (x : Fin 512 → EReal) : EReal := ∑ k : Fin 256, term a b x k

def total (a b : Cent) (fs ft : Feat) : EReal := (∑ n : Fin 16384, pair a b (fs n)) + ∑ n : Fin 16384, pair a b (ft n)

def half : EReal := ((1 / 2 : ℝ) : EReal)
def cnt : EReal := ((8388608 : ℝ) : EReal)
def three : EReal := ((3 : ℝ) : EReal)

theorem c_half : Ideal.ofBits .f32 0x3F000000#32 = half := by
  unfold half; simp [Ideal.ofBits, Ideal.ieee, -EReal.coe_mul] <;> norm_num
theorem c_cnt : Ideal.ofBits .f32 0x4B000000#32 = cnt := by
  unfold cnt; simp [Ideal.ofBits, Ideal.ieee, -EReal.coe_mul] <;> norm_num
theorem c_three : Ideal.ofBits .f32 0x40400000#32 = three := by
  unfold three; simp [Ideal.ofBits, Ideal.ieee, -EReal.coe_mul] <;> norm_num

def loss (fs ft : Feat) (ls lt : Lab) : EReal :=
  Ideal.div
    ((Ideal.div (half * total (uS fs ls) (uT ft lt) fs ft) cnt
        + Ideal.div (half * total (uS fs ls) (uST fs ft ls lt) fs ft) cnt)
      + Ideal.div (half * total (uT ft lt) (uST fs ft ls lt) fs ft) cnt)
    three

def row0 (q : Fin 2) (t : Fin 4) (r : Fin 2048) : Fin 16384 := ⟨(q.val * 4 + t.val) * 2048 + r.val, by omega⟩

def row1 (q : Fin 2) (t : Fin 8) (r : Fin 1024) : Fin 16384 := ⟨(q.val * 8 + t.val) * 1024 + r.val, by omega⟩

def partSum (f : Feat) (l : Lab) (q : Fin 2) : Cent := fun k d =>
  ∑ t : Fin 4, ∑ r : Fin 2048, if l (row0 q t r) = BitVec.ofNat 32 k.val then f (row0 q t r) d else 0

def partCnt (l : Lab) (q : Fin 2) : Fin 256 → EReal := fun k =>
  ∑ t : Fin 4, ∑ r : Fin 2048, if l (row0 q t r) = BitVec.ofNat 32 k.val then (1 : EReal) else 0

/-- Half q's share of a pair's total: the two shares add up to `total`. -/
def corePart (a b : Cent) (fs ft : Feat) (q : Fin 2) : EReal :=
  ∑ k : Fin 256, ∑ t : Fin 8, ((∑ r : Fin 1024, term a b (fs (row1 q t r)) k) + ∑ r : Fin 1024, term a b (ft (row1 q t r)) k)

end Cert.Spec

end
-- ==== Proof.KI.Val0Sum.lean ====
import proofs.«420579_j54743653155312_3_alg».proof.Proof.KI.Val0Piece
import proofs.«420579_j54743653155312_3_alg».proof.Proof.KI.Val0Pay
import proofs.«420579_j54743653155312_3_alg».proof.Proof.Spec

noncomputable section

namespace Cert.KernelIdeal.Val0

open Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

theorem lt8 (t : Fin cfg0.N) : t.val < 8 := lt_of_lt_of_eq t.isLt N_0

theorem idx_facts : ∀ t : Fin cfg0.N,
    (win0_0.index t (0 : Fin 2) = t.val ∧ win0_0.index t (1 : Fin 2) = 0)
    ∧ (win0_2.index t (0 : Fin 3) = t.val ∧ win0_2.index t (1 : Fin 3) = 0 ∧ win0_2.index t (2 : Fin 3) = 0)
    ∧ win0_4.index t (0 : Fin 3) = t.val / 4 ∧ win0_4.index t (1 : Fin 3) = 0 ∧ win0_4.index t (2 : Fin 3) = 0 :=
  (by decide +kernel : ∀ t : Fin grid0.N, _)

abbrev larr0 (c : Dev nD) : Vec Ideal S8x1x2048 .i32 := V c main_v0
abbrev farr0 (c : Dev nD) : Vec Ideal S16384x512 .f32 := V c main_arg0
abbrev larr1 (c : Dev nD) : Vec Ideal S8x1x2048 .i32 := V c main_v1
abbrev farr1 (c : Dev nD) : Vec Ideal S16384x512 .f32 := V c main_arg1

-- Where an entry of a point's block sits in its array: a label, a feature, a sum.
theorem emb2 (t : Fin cfg0.N) (r : Fin 2048) :
    ((cfg0.win 2).blk t).view.emb (ix3 (0 : Fin 1) (0 : Fin 1) r) = ix3 (⟨t.val, lt8 t⟩ : Fin 8) (0 : Fin 1) r := by
  obtain ⟨-, ⟨e0, e1, e2⟩, -⟩ := idx_facts t
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 2048 + 1 * r.val = r.val; omega

theorem emb0 (t : Fin cfg0.N) (r : Fin 2048) (d : Fin 512) :
    ((cfg0.win 0).blk t).view.emb (ix2 r d) = ix2 (⟨t.val * 2048 + r.val, by have := lt8 t; omega⟩ : Fin 16384) d := by
  obtain ⟨⟨e0, e1⟩, -⟩ := idx_facts t
  funext a
  apply Fin.ext
  match a with
  | ⟨0, _⟩ => show win0_0.index t (0 : Fin 2) * 2048 + 1 * r.val = t.val * 2048 + r.val; omega
  | ⟨1, _⟩ => show win0_0.index t (1 : Fin 2) * 512 + 1 * d.val = d.val; omega

theorem emb4 (t : Fin cfg0.N) (k : Fin 256) (d : Fin 512) :
    ((cfg0.win 4).blk t).view.emb (ix3 (0 : Fin 1) k d) = ix3 (⟨t.val / 4, by have := lt8 t; omega⟩ : Fin 2) k d := by
  obtain ⟨-, -, e0, e1, e2⟩ := idx_facts t
  funext a
  apply Fin.ext
  match a with
  | ⟨0, _⟩ => show win0_4.index t (0 : Fin 3) * 1 + 1 * 0 = t.val / 4; omega
  | ⟨1, _⟩ => show win0_4.index t (1 : Fin 3) * 256 + 1 * k.val = k.val; omega
  | ⟨2, _⟩ => show win0_4.index t (2 : Fin 3) * 512 + 1 * d.val = d.val; omega

theorem lab0_apply (c : Dev nD) (t : Fin cfg0.N) (r : Fin 2048) :
    iblk0 V c 2 t (ix3 (0 : Fin 1) (0 : Fin 1) r) = larr0 V c (ix3 (⟨t.val, lt8 t⟩ : Fin 8) (0 : Fin 1) r) :=
  congrArg (V c main_v0) (emb2 t r)

theorem lab1_apply (c : Dev nD) (t : Fin cfg0.N) (r : Fin 2048) :
    iblk0 V c 3 t (ix3 (0 : Fin 1) (0 : Fin 1) r) = larr1 V c (ix3 (⟨t.val, lt8 t⟩ : Fin 8) (0 : Fin 1) r) :=
  congrArg (V c main_v1) (emb2 t r)

-- Tile n's part for class k: the sum of x over the tile's rows labelled k (nothing past the last tile).
def tile (A : Vec Ideal S8x1x2048 .i32) (x : Fin 16384 → EReal) (n : ℕ) (k : Fin 256) : EReal :=
  if h : n < 8 then ∑ r : Fin 2048, if A (ix3 (⟨n, h⟩ : Fin 8) (0 : Fin 1) r) = BitVec.ofNat 32 k.val
    then x ⟨n * 2048 + r.val, by omega⟩ else 0 else 0

-- A block's sum over its rows labelled k is its tile's part, the block's labels and entries being the arrays'.
theorem blk_tile (t : Fin cfg0.N) (lab : Vec Ideal S1x1x2048 .i32) (A : Vec Ideal S8x1x2048 .i32) (y : Fin 2048 → EReal)
    (x : Fin 16384 → EReal) (k : Fin 256) (hl : ∀ r, lab (ix3 (0 : Fin 1) (0 : Fin 1) r) = A (ix3 (⟨t.val, lt8 t⟩ : Fin 8) (0 : Fin 1) r))
    (hy : ∀ r : Fin 2048, y r = x ⟨t.val * 2048 + r.val, by have := lt8 t; omega⟩) :
    (∑ r : Fin 2048, if lab (ix3 (0 : Fin 1) (0 : Fin 1) r) = BitVec.ofNat 32 k.val then y r else 0) = tile A x t.val k := by
  unfold tile
  rw [dif_pos (lt8 t)]
  exact Finset.sum_congr rfl fun r _ => by rw [hl, hy]

-- Half q's four tiles' parts, as the sum over the half's rows.
theorem tile_sum (A : Vec Ideal S8x1x2048 .i32) (x : Fin 16384 → EReal) (q : Fin 2) (k : Fin 256) :
    ∑ s ∈ Finset.range 4, tile A x (q.val * 4 + s) k
      = ∑ t : Fin 4, ∑ r : Fin 2048, if A (ix3 (⟨q.val * 4 + t.val, by omega⟩ : Fin 8) (0 : Fin 1) r) = BitVec.ofNat 32 k.val
          then x ⟨(q.val * 4 + t.val) * 2048 + r.val, by omega⟩ else 0 := by
  rw [Finset.sum_range]
  exact Finset.sum_congr rfl fun t _ => dif_pos (by omega)

-- A reading that vanishes on the zero blocks and that each point's update increases by M is, after a row's last point, the sum of M over the row.
theorem acc (c : Dev nD) (π : Outs0 Ideal → EReal) (M : ℕ → EReal) (h0 : π zeros = 0)
    (hs : ∀ (t : Fin cfg0.N) (p : Outs0 Ideal), π (step V c t p) = π p + M t.val) (t : Fin cfg0.N) (h3 : t.val % 4 = 3) :
    π (outsAt0 V c t.val t.isLt) = ∑ s ∈ Finset.range 4, M (t.val / 4 * 4 + s) := by
  have h' : 4 * (t.val / 4) + t.val % 4 < cfg0.N := (Nat.div_add_mod _ 4).symm ▸ t.isLt
  refine (congrFun (Pipeline.eq_accAt_of_mod (fun n h (_ : Unit) => π (outsAt0 V c n h)) 4 (fun n _ _ => M n)
    (fun n _ a u => a u + M n)
    (fun n h hn => funext fun _ => by rw [outsAt0_A V c ⟨n, h⟩ hn, outA0_eq, hs, h0, zero_add])
    (fun n h hn => funext fun _ => (congrArg π ((outsAt0_B V c ⟨n + 1, h⟩ hn).trans (outB0_eq V c _ hn _))).trans (hs _ _))
    (by omega) t.val t.isLt h') ()).trans ?_
  rw [Pipeline.accAt_add_apply _ _ (fun _ => 0) (fun n _ => M n) _ 3 (fun _ _ => (zero_add _).symm) (fun _ _ _ _ _ _ => rfl) _
    (by omega) h' (), zero_add, h3, Nat.mul_comm]

def sumArr (A : Vec Ideal S8x1x2048 .i32) (B : Vec Ideal S16384x512 .f32) : Vec Ideal S2x256x512 .f32 :=
  fun i => ∑ s ∈ Finset.range 4, tile A (fun m => B (ix2 m (i 2))) ((i 0).val * 4 + s) (i 1)

-- Every index of the array is in the block of its half's last point.
theorem cover4 (i : S2x256x512.Idx) :
    ∃ t : Fin cfg0.N, (cfg0.win 4).flush t = true ∧ i ∈ ((cfg0.win 4).blk t).view.set := by
  have h0 : (i 0).val < 2 := (i 0).isLt
  let t : Fin cfg0.N := ⟨(i 0).val * 4 + 3, lt_of_lt_of_eq (by omega) N_0.symm⟩
  have e : ((cfg0.win 4).blk t).view.emb (ix3 (0 : Fin 1) (i 1) (i 2)) = i :=
    (emb4 t (i 1) (i 2)).trans ((congrArg (ix3 · (i 1) (i 2)) (Fin.ext (by show ((i 0).val * 4 + 3) / 4 = (i 0).val; omega))).trans (eq_ix3 i).symm)
  exact ⟨t, (flush0_4 t).mpr (by show ((i 0).val * 4 + 3) % 4 = 3; omega), e ▸ ((cfg0.win 4).blk t).view.emb_mem_set _⟩

-- A block of sums that each point updates by its labels and features ends a row as its block of the array of partial sums.
theorem sum_lane (c : Dev nD) (π : Outs0 Ideal → Vec Ideal S1x256x512 .f32) (A : Vec Ideal S8x1x2048 .i32) (B : Vec Ideal S16384x512 .f32)
    (lab : Fin cfg0.N → Vec Ideal S1x1x2048 .i32) (feat : Fin cfg0.N → Vec Ideal S2048x512 .f32) (h0 : π zeros = k0_pay4 (F := Ideal))
    (hs : ∀ (t : Fin cfg0.N) (p : Outs0 Ideal), π (step V c t p) = k0_pay10 (lab t) (feat t) (π p))
    (hl : ∀ (t : Fin cfg0.N) (r : Fin 2048), lab t (ix3 (0 : Fin 1) (0 : Fin 1) r) = A (ix3 (⟨t.val, lt8 t⟩ : Fin 8) (0 : Fin 1) r))
    (hf : ∀ (t : Fin cfg0.N) (r : Fin 2048) (d : Fin 512), feat t (ix2 r d) = B (((cfg0.win 0).blk t).view.emb (ix2 r d)))
    (t : Fin cfg0.N) (h3 : t.val % 4 = 3) :
    π (outsAt0 V c t.val t.isLt) = ((cfg0.win 4).blk t).view.read (Elt Ideal) (sumArr A B) := by
  funext j
  obtain ⟨a, k, d, rfl⟩ : ∃ (a : Fin 1) (k : Fin 256) (d : Fin 512), j = ix3 a k d := ⟨j 0, j 1, j 2, eq_ix3 j⟩
  obtain rfl : a = 0 := Subsingleton.elim _ _
  show π (outsAt0 V c t.val t.isLt) (ix3 (0 : Fin 1) k d) = sumArr A B (((cfg0.win 4).blk t).view.emb (ix3 (0 : Fin 1) k d))
  rw [emb4]
  exact acc V c (fun p => π p (ix3 (0 : Fin 1) k d)) (tile A (fun m => B (ix2 m d)) · k) (by rw [h0]; exact pay4_apply _)
    (fun t p => by rw [hs]; exact (pay10_apply _ _ _ k d).trans (congrArg _ (blk_tile t _ _ _ _ k (hl t)
      fun r => (hf t r d).trans (congrArg B (emb0 t r d))))) t h3

theorem arr4_value (c : Dev nD) (q : Fin 2) (k : Fin 256) (d : Fin 512) :
    (dat0 (F := Ideal) V c).arrAt 4 cfg0.N (ix3 q k d)
      = ∑ t : Fin 4, ∑ r : Fin 2048,
          if larr0 V c (ix3 (⟨q.val * 4 + t.val, by omega⟩ : Fin 8) (0 : Fin 1) r) = BitVec.ofNat 32 k.val
            then farr0 V c (ix2 (Cert.Spec.row0 q t r) d) else 0 := by
  rw [(dat0 V c).arrAt_eq_of_cover 4 _ (fun t hf => sum_lane V c (·.1) (larr0 V c) (farr0 V c) (iblk0 V c 2) (iblk0 V c 0) rfl
    (fun _ _ => rfl) (lab0_apply V c) (fun _ _ _ => rfl) t ((flush0_4 t).mp hf)) cover4]
  exact tile_sum _ _ q k

theorem arr6_value (c : Dev nD) (q : Fin 2) (k : Fin 256) (d : Fin 512) :
    (dat0 (F := Ideal) V c).arrAt 6 cfg0.N (ix3 q k d)
      = ∑ t : Fin 4, ∑ r : Fin 2048,
          if larr1 V c (ix3 (⟨q.val * 4 + t.val, by omega⟩ : Fin 8) (0 : Fin 1) r) = BitVec.ofNat 32 k.val
            then farr1 V c (ix2 (Cert.Spec.row0 q t r) d) else 0 := by
  rw [(dat0 V c).arrAt_eq_of_cover 6 _ (fun t hf => sum_lane V c (·.2.2.1) (larr1 V c) (farr1 V c) (iblk0 V c 3) (iblk0 V c 1) rfl
    (fun _ _ => rfl) (lab1_apply V c) (fun _ _ _ => rfl) t ((flush0_6 t).mp hf)) cover4]
  exact tile_sum _ _ q k

end Cert.KernelIdeal.Val0

end
-- ==== Proof.KI.Val0Cnt.lean ====
import proofs.«420579_j54743653155312_3_alg».proof.Proof.KI.Val0Sum

noncomputable section

namespace Cert.KernelIdeal.Val0C

open Cert.KernelIdeal.Gen Cert.KernelIdeal.Val0 Idealize.ShloMosaic Idealize.ShloMosaic.ValueIdx Idealize.ShloMosaic.TcCoe Idealize.SL.Sem

variable (V : (c : Dev nD) → (b : Ref sig .tc) → Buf (Elt Ideal) ((c : Thread nD τ).loc b))

def cntArr (A : Vec Ideal S8x1x2048 .i32) : Vec Ideal S2x1x256 .f32 :=
  fun i => ∑ s ∈ Finset.range 4, tile A (fun _ => 1) ((i 0).val * 4 + s) (i 2)

theorem idx5 : ∀ t : Fin cfg0.N,
    win0_5.index t (0 : Fin 3) = t.val / 4 ∧ win0_5.index t (1 : Fin 3) = 0 ∧ win0_5.index t (2 : Fin 3) = 0 :=
  (by decide +kernel : ∀ t : Fin grid0.N, _)

theorem emb5 (t : Fin cfg0.N) (k : Fin 256) :
    ((cfg0.win 5).blk t).view.emb (ix3 (0 : Fin 1) (0 : Fin 1) k) = ix3 (⟨t.val / 4, by have := lt8 t; omega⟩ : Fin 2) (0 : Fin 1) k := by
  obtain ⟨e0, e1, e2⟩ := idx5 t
  funext a
  apply Fin.ext
  match a with
  | ⟨0, _⟩ => show win0_5.index t (0 : Fin 3) * 1 + 1 * 0 = t.val / 4; omega
  | ⟨1, _⟩ => show win0_5.index t (1 : Fin 3) * 1 + 1 * 0 = 0; omega
  | ⟨2, _⟩ => show win0_5.index t (2 : Fin 3) * 256 + 1 * k.val = k.val; omega

-- Every index of the array is in the block of its half's last point.
theorem cover5 (i : S2x1x256.Idx) :
    ∃ t : Fin cfg0.N, (cfg0.win 5).flush t = true ∧ i ∈ ((cfg0.win 5).blk t).view.set := by
  have h0 : (i 0).val < 2 := (i 0).isLt
  let t : Fin cfg0.N := ⟨(i 0).val * 4 + 3, lt_of_lt_of_eq (by omega) N_0.symm⟩
  have e : ((cfg0.win 5).blk t).view.emb (ix3 (0 : Fin 1) (0 : Fin 1) (i 2)) = i :=
    (emb5 t (i 2)).trans ((congrArg₂ (ix3 · · (i 2)) (Fin.ext (by show ((i 0).val * 4 + 3) / 4 = (i 0).val; omega))
      (Subsingleton.elim _ _)).trans (eq_ix3 i).symm)
  exact ⟨t, (flush0_5 t).mpr (by show ((i 0).val * 4 + 3) % 4 = 3; omega), e ▸ ((cfg0.win 5).blk t).view.emb_mem_set _⟩

-- A block of counts that each point updates by its labels ends a row as its block of the array of partial counts.
theorem cnt_lane (c : Dev nD) (π : Outs0 Ideal → Vec Ideal S1x1x256 .f32) (A : Vec Ideal S8x1x2048 .i32)
    (lab : Fin cfg0.N → Vec Ideal S1x1x2048 .i32) (h0 : π zeros = k0_pay5 (F := Ideal))
    (hs : ∀ (t : Fin cfg0.N) (p : Outs0 Ideal), π (step V c t p) = k0_pay11 (lab t) (π p))
    (hl : ∀ (t : Fin cfg0.N) (r : Fin 2048), lab t (ix3 (0 : Fin 1) (0 : Fin 1) r) = A (ix3 (⟨t.val, lt8 t⟩ : Fin 8) (0 : Fin 1) r))
    (t : Fin cfg0.N) (h3 : t.val % 4 = 3) :
    π (outsAt0 V c t.val t.isLt) = ((cfg0.win 5).blk t).view.read (Elt Ideal) (cntArr A) := by
  funext j
  obtain ⟨a, b, k, rfl⟩ : ∃ (a : Fin 1) (b : Fin 1) (k : Fin 256), j = ix3 a b k := ⟨j 0, j 1, j 2, eq_ix3 j⟩
  obtain rfl : a = 0 := Subsingleton.elim _ _
  obtain rfl : b = 0 := Subsingleton.elim _ _
  show π (outsAt0 V c t.val t.isLt) (ix3 (0 : Fin 1) (0 : Fin 1) k) = cntArr A (((cfg0.win 5).blk t).view.emb (ix3 (0 : Fin 1) (0 : Fin 1) k))
  rw [emb5]
  exact acc V c (fun p => π p (ix3 (0 : Fin 1) (0 : Fin 1) k)) (tile A (fun _ => 1) · k) (by rw [h0]; exact pay5_apply _)
    (fun t p => by rw [hs]; exact (pay11_apply _ _ k).trans (congrArg _ (blk_tile t _ _ _ _ k (hl t) fun _ => rfl))) t h3

theorem arr5_value (c : Dev nD) (q : Fin 2) (k : Fin 256) :
    (dat0 (F := Ideal) V c).arrAt 5 cfg0.N (ix3 q (0 : Fin 1) k)
      = ∑ t : Fin 4, ∑ r : Fin 2048,
          if V c main_v0 (ix3 (⟨q.val * 4 + t.val, by omega⟩ : Fin 8) (0 : Fin 1) r) = BitVec.ofNat 32 k.val then (1 : EReal) else 0 := by
  rw [(dat0 V c).arrAt_eq_of_cover 5 _ (fun t hf => cnt_lane V c (·.2.1) (larr0 V c) (iblk0 V c 2) rfl (fun _ _ => rfl)
    (lab0_apply V c) t ((flush0_5 t).mp hf)) cover5]
  exact tile_sum _ _ q k

theorem arr7_value (c : Dev nD) (q : Fin 2) (k : Fin 256) :
    (dat0 (F := Ideal) V c).arrAt 7 cfg0.N (ix3 q (0 : Fin 1) k)
      = ∑ t : Fin 4, ∑ r : Fin 2048,
          if V c main_v1 (ix3 (⟨q.val * 4 + t.val, by omega⟩ : Fin 8) (0 : Fin 1) r) = BitVec.ofNat 32 k.val then (1 : EReal) else 0 := by
  rw [(dat0 V c).arrAt_eq_of_cover 7 _ (fun t hf => cnt_lane V c (·.2.2.2) (larr1 V c) (iblk0 V c 3) rfl (fun _ _ => rfl)
    (lab1_apply V c) t ((flush0_7 t).mp hf)) cover5]
  exact tile_sum _ _ q k

end Cert.KernelIdeal.Val0C

end
-- ==== Proof.KI.Mid.lean ====
import proofs.«420579_j54743653155312_3_alg».proof.Proof.KI.Launch
import proofs.«420579_j54743653155312_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Mid

open Cert.KernelIdeal Cert.KernelIdeal.Gen Idealize.ShloMosaic Idealize.ShloMosaic.TcCoe Idealize.SL.Sem Idealize.ShloMosaic.StableHlo Idealize.ShloMosaic.ValueIdx

theorem labels_cast (x : (⟨S16384, .i32⟩ : BufTy).Contents (Elt Ideal)) (a : Fin 8) (r : Fin 2048) :
    shapeCast S8x1x2048 x shapeCasts_S16384_S8x1x2048 (ix3 a (0 : Fin 1) r) = x (ix1 ⟨a.val * 2048 + r.val, by omega⟩) := by
  refine shapeCast_apply _ _ _ _ ?_
  show (S16384.rowMajor (ix1 _)).val = (S8x1x2048.rowMajor (ix3 a (0 : Fin 1) r)).val
  rw [Shape.rowMajor_val_one, Shape.rowMajor_val_three]
  show a.val * 2048 + r.val = (a.val * 1 + 0) * 2048 + r.val
  omega

theorem labels_value (X : Valuation τ sig (Elt Ideal)) (a : Fin 8) (r : Fin 2048) :
    StableHlo.after (hostOps0 (F := Ideal)) X (Proc.devRef .tc main_v0) (ix3 a (0 : Fin 1) r)
      = X (Proc.devRef .tc main_arg2) (ix1 ⟨a.val * 2048 + r.val, by omega⟩) := by
  after_results
  exact labels_cast _ a r

theorem labels_value' (X : Valuation τ sig (Elt Ideal)) (a : Fin 8) (r : Fin 2048) :
    StableHlo.after (hostOps0 (F := Ideal)) X (Proc.devRef .tc main_v1) (ix3 a (0 : Fin 1) r)
      = X (Proc.devRef .tc main_arg3) (ix1 ⟨a.val * 2048 + r.val, by omega⟩) := by
  after_results
  exact labels_cast _ a r

section Reads

variable (k : Fin 256) (d : Fin 512)

/-- A sum from zero over a leading axis of two entries is the two entries added. -/
theorem sumV_apply (x : FVec Ideal S2x256x512 .f32) :
    Host.reduceAdd x (constant S_ .f32 0x00000000#32) reducesTo_S2x256x512_S256x512_d0 h_S_ (ix2 k d)
      = x (ix3 (0 : Fin 2) k d) + x (ix3 (1 : Fin 2) k d) := by
  simp only [Host.reduceAdd, Ideal.hostReduceAdd_def]
  rw [Ideal.hostReduceAdd_single reducesTo_S2x256x512_S256x512_d0 (by decide : S2x256x512.Reduces [0] S256x512)]
  show Ideal.ofBits .f32 0x00000000#32 + _ = _
  rw [Ideal.ofBits_zero_f32, zero_add]
  refine (Fin.sum_univ_two _).trans ?_
  congr 1 <;> (congr 1; funext a; apply Fin.ext; fin_cases a <;> rfl)

theorem cntV_apply (x : FVec Ideal S2x1x256 .f32) :
    shapeCast S256 (Host.reduceAdd x (constant S_ .f32 0x00000000#32) reducesTo_S2x1x256_S1x256_d0 h_S_) shapeCasts_S1x256_S256 (ix1 k)
      = x (ix3 (0 : Fin 2) (0 : Fin 1) k) + x (ix3 (1 : Fin 2) (0 : Fin 1) k) := by
  rw [shapeCast_apply _ shapeCasts_S1x256_S256 (ix1 k) (ix2 (0 : Fin 1) k) (by
    rw [Shape.rowMajor_val_one, Shape.rowMajor_val_two]
    show 0 * 256 + k.val = k.val
    omega)]
  simp only [Host.reduceAdd, Ideal.hostReduceAdd_def]
  rw [Ideal.hostReduceAdd_single reducesTo_S2x1x256_S1x256_d0 (by decide : S2x1x256.Reduces [0] S1x256)]
  show Ideal.ofBits .f32 0x00000000#32 + _ = _
  rw [Ideal.ofBits_zero_f32, zero_add]
  refine (Fin.sum_univ_two _).trans ?_
  congr 1 <;> (congr 1; funext a; apply Fin.ext; fin_cases a <;> rfl)

/-- A table over counts laid along its rows, transposed and narrowed, reads at `(d, k)` the entry `(k, d)` over the count of row `k`. -/
theorem tbl_apply (sm : FVec Ideal S256x512 .f32) (n : FVec Ideal S256 .f32) :
    truncf .bf16 (transpose S512x256 [1, 0] (Host.divf sm (broadcastInDim S256x512 ![0, 1] bcast_S256x1_S256x512_0_1
      (broadcastInDim S256x1 ![0] bcast_S256_S256x1_0 n))) transposes_S256x512_S512x256_1_0) bitsLt_bf16_f32 (ix2 d k)
      = Ideal.div (sm (ix2 k d)) (n (ix1 k)) := by
  show transpose S512x256 [1, 0] (Host.divf sm _) transposes_S256x512_S512x256_1_0 (ix2 d k) = _
  rw [transpose_apply [1, 0] _ transposes_S256x512_S512x256_1_0 (ix2 d k) (ix2 k d) (Fin.forall_fin_two.2 ⟨rfl, rfl⟩)]
  exact congrArg (Ideal.div (sm (ix2 k d)))
    ((broadcastInDim_apply _ bcast_S256x1_S256x512_0_1 _ (ix2 k d) (ix2 k (0 : Fin 1)) (Fin.forall_fin_two.2 ⟨rfl, rfl⟩)).trans
      (broadcastInDim_apply _ bcast_S256_S256x1_0 n _ (ix1 k) (Fin.forall_fin_one.2 rfl)))

end Reads

section Cat

variable {F : FTy → Type} [FloatOps F]

abbrev pre : List (HloOp τ sig (Elt F)) := hostOps1.take 27

theorem wcat_eq (X : Valuation τ sig (Elt F)) :
    StableHlo.after (hostOps1 (F := F)) X (Proc.devRef .tc main_v26)
      = concatenate S512x768 1
          [⟨S512x256, StableHlo.after (pre (F := F)) X (Proc.devRef .tc main_v21)⟩,
           ⟨S512x256, StableHlo.after (pre (F := F)) X (Proc.devRef .tc main_v23)⟩,
           ⟨S512x256, StableHlo.after (pre (F := F)) X (Proc.devRef .tc main_v25)⟩]
          concatenates_S512x256_S512x256_S512x256_S512x768_d1 := by
  rw [show (hostOps1 : List (HloOp τ sig (Elt F))) = pre ++ hostOps1.drop 27 from (List.take_append_drop 27 _).symm,
    StableHlo.after_append]
  generalize StableHlo.after (pre (F := F)) X = V
  dsimp only [hostOps1, List.drop]
  rw [after_cons, after_nil, nary_result]
  rfl

theorem cat3_apply {α : Type} (A B C : S512x256.Idx → α) (d : Fin 512) (k : Fin 256) :
    concatenate S512x768 1 [⟨S512x256, A⟩, ⟨S512x256, B⟩, ⟨S512x256, C⟩] concatenates_S512x256_S512x256_S512x256_S512x768_d1
        (ix2 d (⟨k.val, by omega⟩ : Fin 768)) = A (ix2 d k)
      ∧ concatenate S512x768 1 [⟨S512x256, A⟩, ⟨S512x256, B⟩, ⟨S512x256, C⟩] concatenates_S512x256_S512x256_S512x256_S512x768_d1
        (ix2 d (⟨256 + k.val, by omega⟩ : Fin 768)) = B (ix2 d k)
      ∧ concatenate S512x768 1 [⟨S512x256, A⟩, ⟨S512x256, B⟩, ⟨S512x256, C⟩] concatenates_S512x256_S512x256_S512x256_S512x768_d1
        (ix2 d (⟨512 + k.val, by omega⟩ : Fin 768)) = C (ix2 d k) := by
  refine ⟨?_, ?_, ?_⟩
  · exact concatenate_apply_piece (t := S512x768) (1 : Fin 2) [⟨S512x256, A⟩, ⟨S512x256, B⟩, ⟨S512x256, C⟩] concatenates_S512x256_S512x256_S512x256_S512x768_d1
      (ix2 d (⟨k.val, by omega⟩ : Fin 768)) 0 (by show (0 : ℕ) < 3; omega) S512x256 A rfl rfl 0 rfl (ix2 d k)
      (fun b hb => match b, hb with | ⟨0, _⟩, _ => rfl | ⟨1, _⟩, hb => absurd rfl hb) (Nat.zero_add _)
  · exact concatenate_apply_piece (t := S512x768) (1 : Fin 2) [⟨S512x256, A⟩, ⟨S512x256, B⟩, ⟨S512x256, C⟩] concatenates_S512x256_S512x256_S512x256_S512x768_d1
      (ix2 d (⟨256 + k.val, by omega⟩ : Fin 768)) 1 (by show (1 : ℕ) < 3; omega) S512x256 B rfl rfl 256 rfl (ix2 d k)
      (fun b hb => match b, hb with | ⟨0, _⟩, _ => rfl | ⟨1, _⟩, hb => absurd rfl hb) rfl
  · exact concatenate_apply_piece (t := S512x768) (1 : Fin 2) [⟨S512x256, A⟩, ⟨S512x256, B⟩, ⟨S512x256, C⟩] concatenates_S512x256_S512x256_S512x256_S512x768_d1
      (ix2 d (⟨512 + k.val, by omega⟩ : Fin 768)) 2 (by show (2 : ℕ) < 3; omega) S512x256 C rfl rfl 512 rfl (ix2 d k)
      (fun b hb => match b, hb with | ⟨0, _⟩, _ => rfl | ⟨1, _⟩, hb => absurd rfl hb) rfl

end Cat

def halves3 (x : S2x256x512.Idx → EReal) : Cert.Spec.Cent := fun k d => x (ix3 (0 : Fin 2) k d) + x (ix3 (1 : Fin 2) k d)

def halves1 (x : S2x1x256.Idx → EReal) : Fin 256 → EReal := fun k => x (ix3 (0 : Fin 2) (0 : Fin 1) k) + x (ix3 (1 : Fin 2) (0 : Fin 1) k)

def sumS (X : Valuation τ sig (Elt Ideal)) : Cert.Spec.Cent := halves3 (X (Proc.devRef .tc main_v2_0))

def cntS (X : Valuation τ sig (Elt Ideal)) : Fin 256 → EReal := halves1 (X (Proc.devRef .tc main_v2_1))

def sumT (X : Valuation τ sig (Elt Ideal)) : Cert.Spec.Cent := halves3 (X (Proc.devRef .tc main_v2_2))

def cntT (X : Valuation τ sig (Elt Ideal)) : Fin 256 → EReal := halves1 (X (Proc.devRef .tc main_v2_3))

theorem wcat_value (X : Valuation τ sig (Elt Ideal)) (d : Fin 512) (k : Fin 256) :
    StableHlo.after (hostOps1 (F := Ideal)) X (Proc.devRef .tc main_v26) (ix2 d (⟨k.val, by omega⟩ : Fin 768))
        = Cert.Spec.cent (sumS X) (cntS X) k d
      ∧ StableHlo.after (hostOps1 (F := Ideal)) X (Proc.devRef .tc main_v26) (ix2 d (⟨256 + k.val, by omega⟩ : Fin 768))
        = Cert.Spec.cent (sumT X) (cntT X) k d
      ∧ StableHlo.after (hostOps1 (F := Ideal)) X (Proc.devRef .tc main_v26) (ix2 d (⟨512 + k.val, by omega⟩ : Fin 768))
        = Cert.Spec.cent (fun k d => sumS X k d + sumT X k d) (fun k => cntS X k + cntT X k) k d := by
  rw [wcat_eq]
  obtain ⟨h1, h2, h3⟩ := cat3_apply (StableHlo.after (pre (F := Ideal)) X (Proc.devRef .tc main_v21))
    (StableHlo.after (pre (F := Ideal)) X (Proc.devRef .tc main_v23)) (StableHlo.after (pre (F := Ideal)) X (Proc.devRef .tc main_v25)) d k
  refine ⟨h1.trans ?_, h2.trans ?_, h3.trans ?_⟩ <;> dsimp only [pre, hostOps1, List.take] <;> after_results_simp
  · rw [tbl_apply, sumV_apply]
    exact congrArg (Ideal.div _) (cntV_apply k _)
  · rw [tbl_apply, sumV_apply]
    exact congrArg (Ideal.div _) (cntV_apply k _)
  · rw [tbl_apply, addf_apply, addf_apply, sumV_apply, sumV_apply]
    exact congrArg (Ideal.div _) (congrArg₂ (· + ·) (cntV_apply k _) (cntV_apply k _))

end Cert.KernelIdeal.Mid

end
-- ==== Proof.KI.Val1a.lean ====
import proofs.«420579_j54743653155312_3_alg».proof.Proof.KI.R1Frame
import Idealize.ShloMosaic.Lib.QrPanel.Panel

noncomputable section

namespace Cert.KernelIdeal.Val1

open Cert.KernelIdeal Cert.KernelIdeal.Gen Idealize.ShloMosaic Idealize.ShloMosaic.TcCoe Idealize.ShloMosaic.Tactic
open Idealize.ShloMosaic.QrPanel.Panel (zeros2)

variable {F : FTy → Type} [FloatOps F]

variable (V : (c : Dev nD) → (b : Ref sig .tc) → Buf (Elt F) ((c : Thread nD τ).loc b))

theorem read_scr {b : Ref sig .tc} (h : (Memref.whole b).IsWhole) (X : b.ty.shape.Idx → Elt F b.ty.elt) :
    View.read (Elt F) (View.whole b) (h.unread X) = X := h.read_unread X

abbrev xb0 (c : Dev nD) (t : Fin cfg1.N) : Vec F S1024x512 .f32 := iblk1 V c 0 t
abbrev xb1 (c : Dev nD) (t : Fin cfg1.N) : Vec F S1024x512 .f32 := iblk1 V c 1 t
abbrev wb (c : Dev nD) (t : Fin cfg1.N) : Vec F S512x768 .bf16 := iblk1 V c 2 t

/-- One point's update of the three carried vectors from its two feature blocks and its weight block. -/
def step (x0 x1 : Vec F S1024x512 .f32) (w : Vec F S512x768 .bf16) (s : Scr1 F) : Scr1 F :=
  (k1_pay47 (k1_pay12 w) x1 (k1_pay27 s.1 (k1_pay25 w x0) (k1_pay26 w x0)),
   k1_pay6 (k1_pay36 (k1_pay12 w) x1) (k1_pay40 (k1_pay12 w) x1) (k1_pay41 (k1_pay12 w) x1)
     (k1_pay33 (k1_pay14 w x0) (k1_pay18 w x0) (k1_pay19 w x0) s.2.1),
   k1_pay7 (k1_pay36 (k1_pay12 w) x1) (k1_pay45 (k1_pay12 w) x1) (k1_pay46 (k1_pay12 w) x1)
     (k1_pay34 (k1_pay14 w x0) (k1_pay23 w x0) (k1_pay24 w x0) s.2.2))

def zeros : Scr1 F := (k1_pay9, k1_pay10, k1_pay11)

/-- The output block holding the lane-masked totals of three carried vectors. -/
def out8 (s : Scr1 F) : Vec F S8x128 .f32 := k1_pay8 s.1 s.2.1 s.2.2

/-- Each vector is stored whole, so it ends holding the last stored value: a row's middle point leaves the update of what the point before left. -/
theorem soutB1_eq (c : Dev nD) (t : Fin cfg1.N) (h0 : ¬t.val % 8 = 0) (h1 : ¬t.val % 8 = 7) (p : Scr1 F) :
    soutB1 V c t h0 h1 p = step (xb0 V c t) (xb1 V c t) (wb V c t) p := by
  unfold soutB1 step
  rw [View.read_writes_eq_canon VS1_0 _ _ (scover1_B_0 V c t h0 h1 p), View.read_writes_eq_canon VS1_1 _ _ (scover1_B_1 V c t h0 h1 p),
    View.read_writes_eq_canon VS1_2 _ _ (scover1_B_2 V c t h0 h1 p)]
  unfold runB1 kernelRun1_B
  dsimp only
  sl_unfold_words
  simp only [View.canon_cons_unit_zero (S := S1x256) zeros2, View.readAt_eq_ld, Memref.IsWhole.read_unread, View.ld_unit_zero (S := S1024x512) zeros2,
    View.ld_unit_zero (S := S512x768) zeros2, View.ld_unit_zero (S := S1x256) zeros2, View.readCov_cons_toLoadRect, read_scr]

theorem soutC1_eq (c : Dev nD) (t : Fin cfg1.N) (h0 : ¬t.val % 8 = 0) (h1 : t.val % 8 = 7) (p : Scr1 F) :
    soutC1 V c t h0 h1 p = step (xb0 V c t) (xb1 V c t) (wb V c t) p := by
  unfold soutC1 step
  rw [View.read_writes_eq_canon VS1_0 _ _ (scover1_C_0 V c t h0 h1 p), View.read_writes_eq_canon VS1_1 _ _ (scover1_C_1 V c t h0 h1 p),
    View.read_writes_eq_canon VS1_2 _ _ (scover1_C_2 V c t h0 h1 p)]
  unfold runC1 kernelRun1_C
  dsimp only
  sl_unfold_words
  simp only [View.canon_cons_unit_zero (S := S1x256) zeros2, View.readAt_eq_ld, Memref.IsWhole.read_unread, View.ld_unit_zero (S := S1024x512) zeros2,
    View.ld_unit_zero (S := S512x768) zeros2, View.ld_unit_zero (S := S1x256) zeros2, View.readCov_cons_toLoadRect, read_scr]

theorem outC1_eq (c : Dev nD) (t : Fin cfg1.N) (h0 : ¬t.val % 8 = 0) (h1 : t.val % 8 = 7) (p : Scr1 F) :
    outC1 V c t h0 h1 p = out8 (step (xb0 V c t) (xb1 V c t) (wb V c t) p) := by
  unfold outC1 out8 step
  dsimp only
  rw [View.read_writes_eq_canon _ _ _ (cover1_C_3 V c t h0 h1 p)]
  unfold runC1 kernelRun1_C
  dsimp only
  sl_unfold_words
  simp only [View.canon_cons_unit_zero (S := S8x128) zeros2, View.readAt_eq_ld, Memref.IsWhole.read_unread, View.ld_unit_zero (S := S1024x512) zeros2,
    View.ld_unit_zero (S := S512x768) zeros2, View.ld_unit_zero (S := S1x256) zeros2, View.readCov_cons_toLoadRect, read_scr]

/-- A row's first point leaves the update of the three zero vectors. -/
theorem soutA1_eq (c : Dev nD) (t : Fin cfg1.N) (h0 : t.val % 8 = 0) :
    soutA1 V c t h0 = step (xb0 V c t) (xb1 V c t) (wb V c t) zeros := by
  unfold soutA1 step zeros
  rw [View.read_writes_eq_canon VS1_0 _ _ (scover1_A_0 V c t h0), View.read_writes_eq_canon VS1_1 _ _ (scover1_A_1 V c t h0),
    View.read_writes_eq_canon VS1_2 _ _ (scover1_A_2 V c t h0)]
  unfold runA1 kernelRun1_A
  dsimp only
  sl_unfold_words
  simp only [View.canon_cons_unit_zero (S := S1x256) zeros2, View.readAt_eq_ld, Memref.IsWhole.read_unread, View.ld_unit_zero (S := S1024x512) zeros2,
    View.ld_unit_zero (S := S512x768) zeros2, View.ld_unit_zero (S := S1x256) zeros2, View.readCov_cons_toLoadRect, read_scr]

end Cert.KernelIdeal.Val1

end
-- ==== Proof.LibColumn.lean ====
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type} {a b : ℕ}

theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_one, Shape.rowMajor_val_two]
    show i.val = i.val * 1 + u.val
    omega)

theorem broadcastTo_a1_ab_apply (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) :=
  broadcastTo_apply v h _ (ix2 p (0 : Fin 1)) fun ax => match ax with
    | ⟨0, _⟩ => show p.val = if a = 1 then 0 else p.val by split <;> omega
    | ⟨1, _⟩ => rfl

end Cert.LibColumn

end
-- ==== Proof.LibRowMax.lean ====
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

theorem ofBits_neg_inf_f32 : Ideal.ofBits .f32 0xFF800000#32 = (⊥ : EReal) := by
  simp [Ideal.ofBits, Ideal.ieee]

variable {m n : Nat} (x : FVec Ideal ⟨2, ![m, n]⟩ .f32) (h' : (⟨2, ![m, n]⟩ : Shape).ReducesTo [1] ⟨1, ![m]⟩)
  (h : (⟨2, ![m, n]⟩ : Shape).Reduces [1] ⟨1, ![m]⟩) (g : (⟨2, ![m, n]⟩ : Shape).Reduces [0] ⟨1, ![n]⟩)
  (hu : 0 < (⟨0, ![]⟩ : Shape).numel) (r : Fin m) (c : Fin n)

theorem lift_row (k : Fin ((⟨2, ![m, n]⟩ : Shape).size 1)) : h.lift (ix1 r) k = ix2 r (⟨k.val, k.isLt⟩ : Fin n) := by
  funext a; apply Fin.ext
  fin_cases a <;> rfl

theorem lift_col (k : Fin ((⟨2, ![m, n]⟩ : Shape).size 0)) : g.lift (ix1 c) k = ix2 (⟨k.val, k.isLt⟩ : Fin m) c := by
  funext a; apply Fin.ext
  fin_cases a <;> rfl

theorem rowSum_apply :
    multiReduction .add [1] ⟨1, ![m]⟩ x 0x00000000#32 h (.inl rfl) rfl (ix1 r) = ∑ k : Fin n, x (ix2 r k) :=
  (Ideal.multiReduction_add_single x _ h _ _ _).trans (Finset.sum_congr rfl fun k _ => congrArg x (lift_row h r k))

theorem colSum_apply :
    multiReduction .add [0] ⟨1, ![n]⟩ x 0x00000000#32 g (.inl rfl) rfl (ix1 c) = ∑ k : Fin m, x (ix2 k c) :=
  (Ideal.multiReduction_add_single x _ g _ _ _).trans (Finset.sum_congr rfl fun k _ => congrArg x (lift_col g c k))

theorem fold_row : (Finset.univ : Finset (Fin n)).fold max (Ideal.ofBits .f32 0xFF800000#32) (x ∘ h.lift (ix1 r))
    = (Finset.univ : Finset (Fin n)).fold max (⊥ : EReal) (fun J => x (ix2 r J)) := by
  rw [ofBits_neg_inf_f32, show x ∘ h.lift (ix1 r) = fun J : Fin n => x (ix2 r J) from funext fun k => congrArg x (lift_row h r k)]
  rfl

theorem rowMax_apply : multiReduction .maximumf [1] ⟨1, ![m]⟩ x 0xFF800000#32 h (.inl rfl) rfl (ix1 r)
    = (Finset.univ : Finset (Fin n)).fold max (⊥ : EReal) (fun J => x (ix2 r J)) :=
  (Ideal.multiReduction_maximumf_single x _ h _ _ _).trans (fold_row x h r)

include h in
theorem hostReduce_max_row : Host.reduce FloatOps.maximumf x (constant (⟨0, ![]⟩ : Shape) .f32 0xFF800000#32) h' hu (ix1 r)
    = (Finset.univ : Finset (Fin n)).fold max (⊥ : EReal) (fun J => x (ix2 r J)) :=
  (Host.reduce_eq_fold_single FloatOps.maximumf x _ h' h hu _).trans (fold_row x h r)

end Cert.LibRowMax

end
-- ==== Proof.KI.Val1b.lean ====
import proofs.«420579_j54743653155312_3_alg».proof.Proof.Gen.KernelIdeal.Skeleton
import proofs.«420579_j54743653155312_3_alg».proof.Proof.Spec
import proofs.«420579_j54743653155312_3_alg».proof.Proof.LibDot
import proofs.«420579_j54743653155312_3_alg».proof.Proof.LibColumn
import proofs.«420579_j54743653155312_3_alg».proof.Proof.LibRowMax
import Idealize.ShloMosaic.Lib.IdealHost

noncomputable section

namespace Cert.KernelIdeal.Val1

open Idealize.ShloMosaic Idealize.ShloMosaic.ValueIdx
open Cert.KernelIdeal Cert.KernelIdeal.Gen Cert.KLMath

section Generic
variable {F : FTy → Type} [FloatOps F] (w : Vec F S512x768 .bf16) (v : FVec F S512x768 .bf16) (x : Vec F S1024x512 .f32)
  (Z A B : FVec F S1024x256 .f32) (s : Vec F S1x256 .f32)

-- The rows' log-softmaxes and softmaxes of a 1024 × 256 matrix, and a carried vector plus the column sums of a product.
abbrev lsmM : FVec F S1024x256 .f32 := k1_pay4 Z
abbrev smM : FVec F S1024x256 .f32 := k1_pay5 Z
abbrev accM (s : Vec F S1x256 .f32) (A B : FVec F S1024x256 .f32) : FVec F S1x256 .f32 := k1_pay27 s A B

abbrev slc (M : FVec F S1024x768 .f32) (o : ℕ) (h : S1024x768.Slices ![0, o] S1024x256) : FVec F S1024x256 .f32 :=
  extractStridedSlice S1024x256 ![0, o] M h
abbrev sl0 (M : FVec F S1024x768 .f32) := slc M 0 slices_S1024x768_o0_0_S1024x256
abbrev sl256 (M : FVec F S1024x768 .f32) := slc M 256 slices_S1024x768_o0_256_S1024x256
abbrev sl512 (M : FVec F S1024x768 .f32) := slc M 512 slices_S1024x768_o0_512_S1024x256

-- A carried vector plus the column sums of the product of two matrices' log-softmax difference and softmax difference.
abbrev pacc (s : Vec F S1x256 .f32) (Za Zb : FVec F S1024x256 .f32) : FVec F S1x256 .f32 :=
  accM s (subf (lsmM Zb) (lsmM Za)) (subf (smM Zb) (smM Za))

theorem pay18_eq : k1_pay18 w x = lsmM (sl0 (k1_pay13 w x)) := rfl
theorem pay19_eq : k1_pay19 w x = smM (sl0 (k1_pay13 w x)) := rfl
theorem pay23_eq : k1_pay23 w x = lsmM (sl256 (k1_pay13 w x)) := rfl
theorem pay24_eq : k1_pay24 w x = smM (sl256 (k1_pay13 w x)) := rfl
theorem pay14_eq : k1_pay14 w x = sl512 (k1_pay13 w x) := rfl
theorem pay40_eq : k1_pay40 v x = lsmM (sl0 (k1_pay35 v x)) := rfl
theorem pay41_eq : k1_pay41 v x = smM (sl0 (k1_pay35 v x)) := rfl
theorem pay45_eq : k1_pay45 v x = lsmM (sl256 (k1_pay35 v x)) := rfl
theorem pay46_eq : k1_pay46 v x = smM (sl256 (k1_pay35 v x)) := rfl
theorem pay36_eq : k1_pay36 v x = sl512 (k1_pay35 v x) := rfl
theorem pay25_eq : k1_pay25 w x = subf (k1_pay23 w x) (k1_pay18 w x) := rfl
theorem pay26_eq : k1_pay26 w x = subf (k1_pay24 w x) (k1_pay19 w x) := rfl
theorem pay33_eq : k1_pay33 Z A B s = accM s (subf (lsmM Z) A) (subf (smM Z) B) := rfl
theorem pay34_eq : k1_pay34 Z A B s = accM s (subf (lsmM Z) A) (subf (smM Z) B) := rfl
theorem pay6_eq : k1_pay6 Z A B s = accM s (subf (lsmM Z) A) (subf (smM Z) B) := rfl
theorem pay7_eq : k1_pay7 Z A B s = accM s (subf (lsmM Z) A) (subf (smM Z) B) := rfl
theorem pay47_eq : k1_pay47 v x s = accM s (subf (k1_pay45 v x) (k1_pay40 v x)) (subf (k1_pay46 v x) (k1_pay41 v x)) := rfl

end Generic

def rowOf (Z : FVec Ideal S1024x256 .f32) (r : Fin 1024) : Fin 256 → EReal := fun k => Z (ix2 r k)

variable (Z : FVec Ideal S1024x256 .f32) (r : Fin 1024) (k : Fin 256)

theorem shiftM_apply : k1_pay1 Z (ix2 r k) = shift (rowOf Z r) k := by
  unfold k1_pay1
  rw [subf_apply, LibColumn.broadcastTo_a1_ab_apply, LibColumn.shapeCast_a_a1_apply, LibRowMax.rowMax_apply]
  rfl

theorem denomM_apply : k1_pay3 Z (ix2 r (0 : Fin 1)) = denom (rowOf Z r) := by
  unfold k1_pay3 k1_pay2
  rw [LibColumn.shapeCast_a_a1_apply, LibRowMax.rowSum_apply]
  exact Finset.sum_congr rfl fun k _ => congrArg Ideal.exp (shiftM_apply Z r k)

theorem lsmM_apply : lsmM Z (ix2 r k) = lsm (rowOf Z r) k := by
  unfold lsmM k1_pay4
  rw [subf_apply, LibColumn.broadcastTo_a1_ab_apply, shiftM_apply]
  show _ - Ideal.log (k1_pay3 Z _) = _
  rw [denomM_apply]
  rfl

theorem smM_apply : smM Z (ix2 r k) = sm (rowOf Z r) k := by
  unfold smM k1_pay5 k1_pay2
  rw [mulf_apply, LibColumn.broadcastTo_a1_ab_apply, divf_apply]
  show Ideal.exp (k1_pay1 Z _) * Ideal.div (Ideal.ofBits .f32 0x3F800000#32) (k1_pay3 Z _) = _
  rw [shiftM_apply, denomM_apply, Ideal.ofBits_one_f32]
  rfl

theorem accM_apply (s : Vec Ideal S1x256 .f32) (A B : FVec Ideal S1024x256 .f32) :
    accM s A B (ix2 (0 : Fin 1) k) = s (ix2 (0 : Fin 1) k) + ∑ r : Fin 1024, A (ix2 r k) * B (ix2 r k) := by
  unfold accM k1_pay27
  rw [shapeCast_self, addf_apply, shapeCast_a_1a_apply, LibRowMax.colSum_apply]
  rfl

-- Per class, the pair accumulation adds the sum over the rows of the symmetric term.
theorem pacc_apply (s : Vec Ideal S1x256 .f32) (Za Zb : FVec Ideal S1024x256 .f32) :
    pacc s Za Zb (ix2 (0 : Fin 1) k)
      = s (ix2 (0 : Fin 1) k) + ∑ r : Fin 1024, (lsm (rowOf Zb r) k - lsm (rowOf Za r) k) * (sm (rowOf Zb r) k - sm (rowOf Za r) k) := by
  refine (accM_apply k s _ _).trans (congrArg _ (Finset.sum_congr rfl fun r _ => ?_))
  rw [subf_apply, subf_apply, lsmM_apply, lsmM_apply, smM_apply, smM_apply]

def tabOf (w : Vec Ideal S512x768 .bf16) (o : ℕ) (ho : o + 256 ≤ 768) : Spec.Cent :=
  fun k d => w (ix2 d (⟨o + k.val, by omega⟩ : Fin 768))
def frow (x : Vec Ideal S1024x512 .f32) (r : Fin 1024) : Fin 512 → EReal := fun d => x (ix2 r d)

variable (w : Vec Ideal S512x768 .bf16) (x : Vec Ideal S1024x512 .f32)

theorem pay35_eq : k1_pay35 (k1_pay12 w) x = k1_pay13 w x := rfl

-- A row of the logits' slice from column o on is the feature row's logits against the table there.
theorem rowOf_slice (o : ℕ) (ho : o + 256 ≤ 768) (h : S1024x768.Slices ![0, o] S1024x256) :
    rowOf (slc (k1_pay13 w x) o h) r = Spec.logit (tabOf w o ho) (frow x r) := by
  funext k
  refine (slice2_axis1_apply o _ h r k ⟨o + k.val, by omega⟩ rfl).trans ?_
  unfold k1_pay13 k1_pay12
  rw [shapeCast_self]
  exact LibDot.matmul_plain_apply dot_S1024x512_S512x768_S1024x768_1_0_0_1_n_n rfl rfl rfl rfl rfl rfl none _ w r _

-- Two feature blocks one after the other: what the vector held, plus the first block's rows' terms, plus the second's.
theorem pair_acc (s : Vec Ideal S1x256 .f32) (w : Vec Ideal S512x768 .bf16) (x0 x1 : Vec Ideal S1024x512 .f32)
    (oa ob : ℕ) (hoa : oa + 256 ≤ 768) (hob : ob + 256 ≤ 768)
    (ha : S1024x768.Slices ![0, oa] S1024x256) (hb : S1024x768.Slices ![0, ob] S1024x256) (k : Fin 256) :
    pacc (pacc s (slc (k1_pay13 w x0) oa ha) (slc (k1_pay13 w x0) ob hb)) (slc (k1_pay13 w x1) oa ha) (slc (k1_pay13 w x1) ob hb)
        (ix2 (0 : Fin 1) k)
      = (s (ix2 (0 : Fin 1) k) + ∑ r : Fin 1024, Spec.term (tabOf w oa hoa) (tabOf w ob hob) (frow x0 r) k)
          + ∑ r : Fin 1024, Spec.term (tabOf w oa hoa) (tabOf w ob hob) (frow x1 r) k := by
  rw [pacc_apply, pacc_apply]
  simp only [rowOf_slice _ _ _ oa hoa ha, rowOf_slice _ _ _ ob hob hb]
  rfl

end Cert.KernelIdeal.Val1

end
-- ==== Proof.KI.Val1c.lean ====
import proofs.«420579_j54743653155312_3_alg».proof.Proof.KI.Val1a
import proofs.«420579_j54743653155312_3_alg».proof.Proof.KI.Val1b

noncomputable section

namespace Cert.KernelIdeal.Val1

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- Per class, the symmetric terms of two feature blocks' rows for the tables at column offsets `oa`, `ob` of a weight block. -/
def pt (x0 x1 : Vec Ideal S1024x512 .f32) (w : Vec Ideal S512x768 .bf16) (oa ob : ℕ) (hoa : oa + 256 ≤ 768) (hob : ob + 256 ≤ 768)
    (k : Fin 256) : EReal :=
  (∑ r : Fin 1024, Spec.term (tabOf w oa hoa) (tabOf w ob hob) (frow x0 r) k)
    + ∑ r : Fin 1024, Spec.term (tabOf w oa hoa) (tabOf w ob hob) (frow x1 r) k

/-- The carried vector `π` accumulates the pair of tables at `oa`, `ob`: zero at a row's start, each point's update adds the point's terms. -/
abbrev Acc (π : Scr1 Ideal → Vec Ideal S1x256 .f32) (oa ob : ℕ) (hoa : oa + 256 ≤ 768) (hob : ob + 256 ≤ 768) : Prop :=
  (∀ k, π zeros (ix2 (0 : Fin 1) k) = 0) ∧
    ∀ x0 x1 w s k, π (step x0 x1 w s) (ix2 (0 : Fin 1) k) = π s (ix2 (0 : Fin 1) k) + pt x0 x1 w oa ob hoa hob k

theorem zeros_val (k : Fin 256) : (zeros (F := Ideal)).1 (ix2 (0 : Fin 1) k) = 0 := by
  unfold zeros k1_pay9
  dsimp only
  rw [shapeCast_self]
  exact Ideal.ofBits_zero_f32

/-- The three carried vectors accumulate the three pairs of the tables at column offsets 0, 256, 512. -/
theorem acc3 : Acc (·.1) 0 256 (by omega) (by omega) ∧ Acc (·.2.1) 0 512 (by omega) (by omega) ∧ Acc (·.2.2) 256 512 (by omega) (by omega) := by
  refine ⟨⟨zeros_val, fun x0 x1 w s k => ?_⟩, ⟨zeros_val, fun x0 x1 w s k => ?_⟩, ⟨zeros_val, fun x0 x1 w s k => ?_⟩⟩ <;>
    (unfold step; dsimp only; simp only [pay47_eq, pay6_eq, pay7_eq, pay33_eq, pay34_eq, pay25_eq, pay26_eq, pay45_eq, pay40_eq, pay46_eq,
      pay41_eq, pay36_eq, pay35_eq, pay23_eq, pay18_eq, pay24_eq, pay19_eq, pay14_eq])
  · exact (pair_acc s.1 w x0 x1 0 256 _ _ slices_S1024x768_o0_0_S1024x256 slices_S1024x768_o0_256_S1024x256 k).trans (add_assoc _ _ _)
  · exact (pair_acc s.2.1 w x0 x1 0 512 _ _ slices_S1024x768_o0_0_S1024x256 slices_S1024x768_o0_512_S1024x256 k).trans (add_assoc _ _ _)
  · exact (pair_acc s.2.2 w x0 x1 256 512 _ _ slices_S1024x768_o0_256_S1024x256 slices_S1024x768_o0_512_S1024x256 k).trans (add_assoc _ _ _)

variable (π : Scr1 Ideal → Vec Ideal S1x256 .f32) (oa ob : ℕ) (hoa : oa + 256 ≤ 768) (hob : ob + 256 ≤ 768)

/-- Point `n`'s terms for the pair of tables (zero past the grid). -/
def tile (c : Dev nD) (n : ℕ) (k : Fin 256) : EReal :=
  if h : n < cfg1.N then pt (xb0 V c ⟨n, h⟩) (xb1 V c ⟨n, h⟩) (wb V c ⟨n, h⟩) oa ob hoa hob k else 0

variable (H : Acc π oa ob hoa hob)
include H

/-- After point j of a core's row such a vector holds the sum of the terms of the row's points up to j: the first point's alone, then each point's added to what the point before left. -/
theorem fold (c : Dev nD) (q : Fin 2) (k : Fin 256) : ∀ (j : ℕ) (h : 8 * q.val + j < cfg1.N), j < 8 →
    π (outsAt1 V c (8 * q.val + j) h).2 (ix2 (0 : Fin 1) k) = ∑ i ∈ Finset.range (j + 1), tile V oa ob hoa hob c (8 * q.val + i) k
  | 0, h, _ => by
    rw [Finset.sum_range_one, outsAt1_A V c ⟨_, h⟩ (by show (8 * q.val + 0) % 8 = 0; omega)]
    dsimp only
    rw [soutA1_eq, H.2, H.1, zero_add]
    unfold tile
    rw [dif_pos h]
  | j + 1, h, hj => by
    have h0 : ¬(8 * q.val + (j + 1)) % 8 = 0 := by omega
    rw [Finset.sum_range_succ, ← fold c q k j (by omega) (by omega)]
    unfold tile
    rw [dif_pos h]
    by_cases h1 : (8 * q.val + (j + 1)) % 8 = 7
    · rw [outsAt1_C V c ⟨_, h⟩ h0 h1]
      dsimp only
      rw [soutC1_eq, H.2]
      rfl
    · rw [outsAt1_B V c ⟨_, h⟩ h0 h1]
      dsimp only
      rw [soutB1_eq, H.2]
      rfl

end Cert.KernelIdeal.Val1

end
-- ==== Proof.KI.Val1d.lean ====
import proofs.«420579_j54743653155312_3_alg».proof.Proof.Gen.KernelIdeal.Skeleton
import proofs.«420579_j54743653155312_3_alg».proof.Proof.LibColumn
import proofs.«420579_j54743653155312_3_alg».proof.Proof.LibRowMax
import Idealize.ShloMosaic.Lib.ValueLayout

noncomputable section

namespace Cert.KernelIdeal.Val1

open Idealize.ShloMosaic Idealize.ShloMosaic.ValueIdx
open Cert.KernelIdeal Cert.KernelIdeal.Gen

-- The weight lane l gives the vector numbered by the word j: one on lane j, zero on every other lane.
def laneW (j : BitVec 32) (l : Fin 128) : EReal :=
  (sitofp .f32 (extui 32 (cmpi .eq (iota .tc S1x128 32 [1] iota_S1x128_d1_w32) (broadcast S1x128 j)) natLt_1_32) : FVec Ideal S1x128 .f32) (ix2 (0 : Fin 1) l)

theorem laneW_eq (j : BitVec 32) (l : Fin 128) : laneW j l = if BitVec.ofNat 32 l.val = j then 1 else 0 := by
  show ((((IntOp.cmpi .eq (BitVec.ofNat 32 (0 * 128 + l.val)) j).setWidth 32).toInt : ℝ) : EReal) = _
  split <;> rename_i h
  · simp [IntOp.cmpi, h]
  · simp [IntOp.cmpi, beq_eq_false_iff_ne.mpr h]

variable (s0 s1 s2 : Vec Ideal S1x256 .f32) (a : Fin 8)

-- Every row of the block is the three carried vectors' totals weighted by the three lane weights.
theorem pay8_apply (l : Fin 128) :
    k1_pay8 s0 s1 s2 (ix2 a l)
      = ((∑ k : Fin 256, s0 (ix2 (0 : Fin 1) k)) * laneW 0#32 l + (∑ k : Fin 256, s1 (ix2 (0 : Fin 1) k)) * laneW 1#32 l)
          + (∑ k : Fin 256, s2 (ix2 (0 : Fin 1) k)) * laneW 2#32 l := by
  unfold k1_pay8
  rw [broadcastTo_1b_ab_apply, shapeCast_self]
  simp only [addf_apply, mulf_apply, LibColumn.broadcastTo_a1_ab_apply, LibColumn.shapeCast_a_a1_apply]
  rw [LibRowMax.rowSum_apply, LibRowMax.rowSum_apply, LibRowMax.rowSum_apply]
  rfl

theorem pay8_lane0 : k1_pay8 s0 s1 s2 (ix2 a (0 : Fin 128)) = ∑ k : Fin 256, s0 (ix2 (0 : Fin 1) k) := by
  simp [pay8_apply, laneW_eq]
theorem pay8_lane1 : k1_pay8 s0 s1 s2 (ix2 a (1 : Fin 128)) = ∑ k : Fin 256, s1 (ix2 (0 : Fin 1) k) := by
  simp [pay8_apply, laneW_eq]
theorem pay8_lane2 : k1_pay8 s0 s1 s2 (ix2 a (2 : Fin 128)) = ∑ k : Fin 256, s2 (ix2 (0 : Fin 1) k) := by
  simp [pay8_apply, laneW_eq]

end Cert.KernelIdeal.Val1

end
-- ==== Proof.KI.Val1e.lean ====
import proofs.«420579_j54743653155312_3_alg».proof.Proof.KI.Val1c
import proofs.«420579_j54743653155312_3_alg».proof.Proof.KI.Val1d

noncomputable section

namespace Cert.KernelIdeal.Val1

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

def featS (c : Dev nD) : Spec.Feat := fun n d => V c main_arg0 (ix2 n d)
def featT (c : Dev nD) : Spec.Feat := fun n d => V c main_arg1 (ix2 n d)
def tab (c : Dev nD) (o : ℕ) (ho : o + 256 ≤ 768) : Spec.Cent := tabOf (V c main_v26) o ho

theorem idx1 : ∀ t : Fin grid1.N, (win1_0.index t 0 = t.val ∧ win1_0.index t 1 = 0) ∧ (win1_1.index t 0 = t.val ∧ win1_1.index t 1 = 0)
    ∧ (win1_2.index t 0 = 0 ∧ win1_2.index t 1 = 0) ∧ win1_3.index t 0 = t.val / 8 ∧ win1_3.index t 1 = 0
    ∧ win1_3.xsize (grid1.coords t) 0 = 8 := by decide +kernel

/-- Point 8q + j's feature blocks are tile j of half q's rows of the feature arrays; its weight block is the weight array. -/
theorem frow_xb0 (c : Dev nD) (q : Fin 2) (j : Fin 8) (h : 8 * q.val + j.val < cfg1.N) (r : Fin 1024) :
    frow (xb0 V c ⟨8 * q.val + j.val, h⟩) r = featS V c (Spec.row1 q j r) := by
  funext d
  show V c main_arg0 _ = V c main_arg0 _
  refine congrArg _ (Shape.idx_ext₂ ?_ ?_)
  · show win1_0.index _ 0 * 1024 + 1 * r.val = (q.val * 8 + j.val) * 1024 + r.val
    rw [(idx1 _).1.1]; show (8 * q.val + j.val) * 1024 + 1 * r.val = _; omega
  · show win1_0.index _ 1 * 512 + 1 * d.val = d.val; rw [(idx1 _).1.2]; omega

theorem frow_xb1 (c : Dev nD) (q : Fin 2) (j : Fin 8) (h : 8 * q.val + j.val < cfg1.N) (r : Fin 1024) :
    frow (xb1 V c ⟨8 * q.val + j.val, h⟩) r = featT V c (Spec.row1 q j r) := by
  funext d
  show V c main_arg1 _ = V c main_arg1 _
  refine congrArg _ (Shape.idx_ext₂ ?_ ?_)
  · show win1_1.index _ 0 * 1024 + 1 * r.val = (q.val * 8 + j.val) * 1024 + r.val
    rw [(idx1 _).2.1.1]; show (8 * q.val + j.val) * 1024 + 1 * r.val = _; omega
  · show win1_1.index _ 1 * 512 + 1 * d.val = d.val; rw [(idx1 _).2.1.2]; omega

theorem wb_eq (c : Dev nD) (t : Fin cfg1.N) : wb V c t = V c main_v26 := by
  funext i
  show V c main_v26 _ = V c main_v26 _
  refine congrArg _ (Shape.idx_ext₂ ?_ ?_)
  · show win1_2.index t 0 * 512 + 1 * (i 0).val = (i 0).val; rw [(idx1 t).2.2.1.1]; omega
  · show win1_2.index t 1 * 768 + 1 * (i 1).val = (i 1).val; rw [(idx1 t).2.2.1.2]; omega

/-- Output block `t` lies within rows 8 (t / 8) … 8 (t / 8) + 7 of the output array, so two written blocks do not meet. -/
theorem disj3 (t t' : Fin cfg1.N) (hf : (cfg1.win 3).flush t = true) (hf' : (cfg1.win 3).flush t' = true) (hne : t ≠ t') :
    Disjoint ((cfg1.win 3).blk t).view.set ((cfg1.win 3).blk t').view.set := by
  have mem : ∀ (t : Fin cfg1.N) (i : S16x128.Idx), i ∈ ((cfg1.win 3).blk t).view.set →
      8 * (t.val / 8) ≤ (i 0).val ∧ (i 0).val < 8 * (t.val / 8) + 8 := fun t i hi => by
    change i ∈ ((View.whole main_v27).slice (win1_3.rect t)).set at hi
    rw [View.set_slice_whole, Rect.mem_set_unit] at hi
    have h0 := hi 0
    change win1_3.index t 0 * 8 ≤ (i 0 : Nat) ∧ (i 0 : Nat) < win1_3.index t 0 * 8 + win1_3.xsize (grid1.coords t) 0 at h0
    rw [(idx1 t).2.2.2.1, (idx1 t).2.2.2.2.2] at h0
    omega
  have h7 := (flush1_3 t).mp hf
  have h7' := (flush1_3 t').mp hf'
  have hv : t.val ≠ t'.val := fun e => hne (Fin.ext e)
  refine Finset.disjoint_left.mpr fun i hi hi' => ?_
  have a := mem t i hi
  have b := mem t' i hi'
  omega

/-- Entry (8q, l) of the output array after the run is entry (0, l) of the block the last point of core q's row left. -/
theorem arr3_at (c : Dev nD) (q : Fin 2) (l : Fin 128) (h : 8 * q.val + 7 < cfg1.N) (hq : 8 * q.val < 16) :
    (dat1 V c).arrAt 3 cfg1.N (ix2 (⟨8 * q.val, hq⟩ : Fin 16) l) = (outsAt1 V c (8 * q.val + 7) h).1 (ix2 (0 : Fin 8) l) := by
  have key := (dat1 V c).arrAt_emb_eq_flushed 3 disj3 ⟨8 * q.val + 7, h⟩ ((flush1_3 _).mpr (by show (8 * q.val + 7) % 8 = 7; omega))
    (ix2 (0 : Fin 8) l)
  have hemb : ((cfg1.win 3).blk ⟨8 * q.val + 7, h⟩).view.emb (ix2 (0 : Fin 8) l) = ix2 (⟨8 * q.val, hq⟩ : Fin 16) l := by
    refine Shape.idx_ext₂ ?_ ?_
    · show win1_3.index ⟨8 * q.val + 7, h⟩ 0 * 8 + 1 * 0 = 8 * q.val
      rw [(idx1 _).2.2.2.1]; show (8 * q.val + 7) / 8 * 8 + 1 * 0 = 8 * q.val; omega
    · show win1_3.index ⟨8 * q.val + 7, h⟩ 1 * 128 + 1 * l.val = l.val
      rw [(idx1 _).2.2.2.2.1]; omega
  exact hemb ▸ key

section

variable (π : Scr1 Ideal → Vec Ideal S1x256 .f32) (oa ob : ℕ) (hoa : oa + 256 ≤ 768) (hob : ob + 256 ≤ 768)

/-- Point 8q + j's terms are those of tile j of half q's rows, of the first array then of the second. -/
theorem tile_at (c : Dev nD) (q : Fin 2) (j : Fin 8) (k : Fin 256) :
    tile V oa ob hoa hob c (8 * q.val + j.val) k
      = (∑ r : Fin 1024, Spec.term (tab V c oa hoa) (tab V c ob hob) (featS V c (Spec.row1 q j r)) k)
          + ∑ r : Fin 1024, Spec.term (tab V c oa hoa) (tab V c ob hob) (featT V c (Spec.row1 q j r)) k := by
  have hlt : 8 * q.val + j.val < cfg1.N := by have hN : cfg1.N = 16 := N_1; omega
  unfold tile pt
  rw [dif_pos hlt, wb_eq]
  simp only [frow_xb0, frow_xb1]
  rfl

/-- Where lane `l` of the output block holds the total of a vector accumulating the pair at `oa`, `ob`, entry (8q, l) of the output array is half q's part of that pair's total. -/
theorem lane (H : Acc π oa ob hoa hob) (l : Fin 128)
    (hl : ∀ (s : Scr1 Ideal) (a : Fin 8), out8 s (ix2 a l) = ∑ k : Fin 256, π s (ix2 (0 : Fin 1) k))
    (c : Dev nD) (q : Fin 2) (hq : 8 * q.val < 16) :
    (dat1 V c).arrAt 3 cfg1.N (ix2 (⟨8 * q.val, hq⟩ : Fin 16) l)
      = Spec.corePart (tab V c oa hoa) (tab V c ob hob) (featS V c) (featT V c) q := by
  have h : 8 * q.val + 7 < cfg1.N := by have hN : cfg1.N = 16 := N_1; omega
  have h0 : ¬(8 * q.val + 7) % 8 = 0 := by omega
  have h1 : (8 * q.val + 7) % 8 = 7 := by omega
  have blk : (outsAt1 V c (8 * q.val + 7) h).1 = out8 (outsAt1 V c (8 * q.val + 7) h).2 := by
    rw [outsAt1_C V c ⟨8 * q.val + 7, h⟩ h0 h1]
    dsimp only
    rw [outC1_eq, soutC1_eq]
  rw [arr3_at V c q l h hq, blk, hl]
  simp only [fun k => fold V π oa ob hoa hob H c q k 7 h (by omega), Finset.sum_range, tile_at]
  rfl

end

/-- Entries (8q, 0), (8q, 1), (8q, 2) of the output array are half q's parts of the three pairs' totals. -/
theorem arr3_value (c : Dev nD) (q : Fin 2) (hq : 8 * q.val < 16) :
    (dat1 V c).arrAt 3 cfg1.N (ix2 (⟨8 * q.val, hq⟩ : Fin 16) (0 : Fin 128))
        = Spec.corePart (tab V c 0 (by omega)) (tab V c 256 (by omega)) (featS V c) (featT V c) q
    ∧ (dat1 V c).arrAt 3 cfg1.N (ix2 (⟨8 * q.val, hq⟩ : Fin 16) (1 : Fin 128))
        = Spec.corePart (tab V c 0 (by omega)) (tab V c 512 (by omega)) (featS V c) (featT V c) q
    ∧ (dat1 V c).arrAt 3 cfg1.N (ix2 (⟨8 * q.val, hq⟩ : Fin 16) (2 : Fin 128))
        = Spec.corePart (tab V c 256 (by omega)) (tab V c 512 (by omega)) (featS V c) (featT V c) q :=
  ⟨lane V _ _ _ _ _ acc3.1 0 (fun _ => pay8_lane0 _ _ _) c q hq,
   lane V _ _ _ _ _ acc3.2.1 1 (fun _ => pay8_lane1 _ _ _) c q hq,
   lane V _ _ _ _ _ acc3.2.2 2 (fun _ => pay8_lane2 _ _ _) c q hq⟩

end Cert.KernelIdeal.Val1

end
-- ==== Proof.KI.Tail.lean ====
import proofs.«420579_j54743653155312_3_alg».proof.Proof.KI.Launch
import proofs.«420579_j54743653155312_3_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.ValueIdx

theorem elem_read (Y : S16x128.Idx → EReal) {o0 o1 : Nat} (h : S16x128.Slices ![o0, o1] S1x1)
    (i : S_.Idx) (a : Fin 16) (b : Fin 128) (ha : a.val = o0 := by rfl) (hb : b.val = o1 := by rfl) :
    shapeCast S_ (extractStridedSlice S1x1 ![o0, o1] Y h) shapeCasts_S1x1_S_ i = Y (ix2 a b) := by
  refine (shapeCast_apply _ _ i (ix2 (0 : Fin 1) (0 : Fin 1)) ?_).trans ?_
  · rw [Shape.rowMajor_val_two]
    show 0 * 1 + 0 = (Shape.rowMajorPi _ i).val
    rw [Shape.rowMajorPi_zero]
  · exact extractStridedSlice_apply _ _ h _ _ (fun ax => by
      match ax with
      | ⟨0, _⟩ => exact ha
      | ⟨1, _⟩ => exact hb)

abbrev arr27 (X : Valuation Cert.KernelIdeal.τ Cert.KernelIdeal.sig (Elt Ideal)) : S16x128.Idx → EReal :=
  X (Proc.devRef .tc main_v27)

theorem tail_value (X : Valuation Cert.KernelIdeal.τ Cert.KernelIdeal.sig (Elt Ideal)) :
    StableHlo.after (Cert.KernelIdeal.Gen.hostOps2 (F := Ideal)) X (Proc.devRef .tc Cert.KernelIdeal.main_v51)
      = fun _ => Ideal.div
          ((Ideal.div (Cert.Spec.half * (arr27 X (ix2 (0 : Fin 16) (0 : Fin 128)) + arr27 X (ix2 (8 : Fin 16) (0 : Fin 128)))) Cert.Spec.cnt
            + Ideal.div (Cert.Spec.half * (arr27 X (ix2 (0 : Fin 16) (1 : Fin 128)) + arr27 X (ix2 (8 : Fin 16) (1 : Fin 128)))) Cert.Spec.cnt)
           + Ideal.div (Cert.Spec.half * (arr27 X (ix2 (0 : Fin 16) (2 : Fin 128)) + arr27 X (ix2 (8 : Fin 16) (2 : Fin 128)))) Cert.Spec.cnt)
          Cert.Spec.three := by
  dsimp only [Gen.hostOps2]
  after_results_simp
  funext i
  simp only [hostDivf_apply, addf_apply, mulf_apply, constant_apply, Cert.Spec.c_half, Cert.Spec.c_cnt, Cert.Spec.c_three]
  rw [← elem_read (arr27 X) slices_S16x128_S1x1_0_0 i 0 0,
    ← elem_read (arr27 X) slices_S16x128_S1x1_8_0 i 8 0,
    ← elem_read (arr27 X) slices_S16x128_S1x1_0_1 i 0 1,
    ← elem_read (arr27 X) slices_S16x128_S1x1_8_1 i 8 1,
    ← elem_read (arr27 X) slices_S16x128_S1x1_0_2 i 0 2,
    ← elem_read (arr27 X) slices_S16x128_S1x1_8_2 i 8 2]
  rfl

end Cert.KernelIdeal.Tail

end
-- ==== Proof.SpecParts.lean ====
import proofs.«420579_j54743653155312_3_alg».proof.Proof.Spec
import Mathlib.Algebra.BigOperators.Fin
import Mathlib.Algebra.BigOperators.Group.Finset.Basic
import Mathlib.Data.Fintype.BigOperators
import Mathlib.Data.EReal.Basic

noncomputable section

namespace Cert.Spec

open Idealize.ShloMosaic Cert.KLMath

/-- Every row below `2 · T · R` is `(q · T + t) · R + r` for exactly one `(q, t, r)`: a sum over the rows, walked half by half, tile by tile, row by row. -/
theorem sum_tiles {T R : Nat} (row : Fin 2 → Fin T → Fin R → Fin (2 * T * R))
    (h : ∀ q t r, (row q t r).val = (q.val * T + t.val) * R + r.val) (g : Fin (2 * T * R) → EReal) :
    ∑ n, g n = ∑ q, ∑ t, ∑ r, g (row q t r) := by
  rw [← finProdFinEquiv.sum_comp g, Fintype.sum_prod_type, ← finProdFinEquiv.sum_comp, Fintype.sum_prod_type]
  refine Finset.sum_congr rfl fun q _ => Finset.sum_congr rfl fun t _ => Finset.sum_congr rfl fun r _ => congrArg g (Fin.ext ?_)
  rw [h, finProdFinEquiv_apply_val, finProdFinEquiv_apply_val]
  ring

theorem segSum_parts (f : Feat) (l : Lab) (k : Fin 256) (d : Fin 512) :
    segSum f l k d = partSum f l 0 k d + partSum f l 1 k d :=
  (sum_tiles row0 (fun _ _ _ => rfl) _).trans (Fin.sum_univ_two _)

theorem segCnt_parts (l : Lab) (k : Fin 256) : segCnt l k = partCnt l 0 k + partCnt l 1 k :=
  (sum_tiles row0 (fun _ _ _ => rfl) _).trans (Fin.sum_univ_two _)

theorem corePart_eq (a b : Cent) (fs ft : Feat) (q : Fin 2) :
    corePart a b fs ft q
      = (∑ t : Fin 8, ∑ r : Fin 1024, pair a b (fs (row1 q t r)))
        + ∑ t : Fin 8, ∑ r : Fin 1024, pair a b (ft (row1 q t r)) := by
  unfold corePart pair
  simp only [Finset.sum_add_distrib]
  congr 1 <;>
  · rw [Finset.sum_comm]
    exact Finset.sum_congr rfl fun t _ => Finset.sum_comm

theorem total_parts (a b : Cent) (fs ft : Feat) : total a b fs ft = corePart a b fs ft 0 + corePart a b fs ft 1 := by
  unfold total
  rw [sum_tiles row1 (fun _ _ _ => rfl) fun n => pair a b (fs n), sum_tiles row1 (fun _ _ _ => rfl) fun n => pair a b (ft n),
    Fin.sum_univ_two, Fin.sum_univ_two, corePart_eq, corePart_eq]
  exact add_add_add_comm _ _ _ _

end Cert.Spec

end
-- ==== Proof.KI.Value.lean ====
import proofs.«420579_j54743653155312_3_alg».proof.Proof.KI.Run
import proofs.«420579_j54743653155312_3_alg».proof.Proof.KI.Val0Sum
import proofs.«420579_j54743653155312_3_alg».proof.Proof.KI.Val0Cnt
import proofs.«420579_j54743653155312_3_alg».proof.Proof.KI.Mid
import proofs.«420579_j54743653155312_3_alg».proof.Proof.KI.Val1e
import proofs.«420579_j54743653155312_3_alg».proof.Proof.KI.Tail
import proofs.«420579_j54743653155312_3_alg».proof.Proof.SpecParts
import Idealize.ShloMosaic.Lib.ValueIdx

noncomputable section

namespace Cert.KernelIdeal.Value

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

abbrev fs (c : Dev nD) : Cert.Spec.Feat := fun n d => m ((c : Thread nD τ).loc main_arg0) (ix2 n d)

abbrev ft (c : Dev nD) : Cert.Spec.Feat := fun n d => m ((c : Thread nD τ).loc main_arg1) (ix2 n d)

abbrev ls (c : Dev nD) : Cert.Spec.Lab := fun n => m ((c : Thread nD τ).loc main_arg2) (ix1 n)

abbrev lt (c : Dev nD) : Cert.Spec.Lab := fun n => m ((c : Thread nD τ).loc main_arg3) (ix1 n)

theorem En0_arg0 (c : Dev nD) : En0 m ρ c main_arg0 = m ((c : Thread nD τ).loc main_arg0) :=
  calc W1 m ρ c (Proc.devRef .tc main_arg0)
    _ = W0 m ρ c (Proc.devRef .tc main_arg0) := StableHlo.after_of_writes_sub hostOps0 _ hostOps0_writes (r := main_arg0) (by decide)
    _ = m ((c : Thread nD τ).loc main_arg0) := rfl

theorem En0_arg1 (c : Dev nD) : En0 m ρ c main_arg1 = m ((c : Thread nD τ).loc main_arg1) :=
  calc W1 m ρ c (Proc.devRef .tc main_arg1)
    _ = W0 m ρ c (Proc.devRef .tc main_arg1) := StableHlo.after_of_writes_sub hostOps0 _ hostOps0_writes (r := main_arg1) (by decide)
    _ = m ((c : Thread nD τ).loc main_arg1) := rfl

theorem En1_arg0 (c : Dev nD) : En1 m ρ c main_arg0 = m ((c : Thread nD τ).loc main_arg0) :=
  calc W3 m ρ c (Proc.devRef .tc main_arg0)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (En0 m ρ) c).arrAt_in 0 rfl _).trans (A_eq0 (En0 m ρ) c 0))
    _ = m ((c : Thread nD τ).loc main_arg0) := En0_arg0 m ρ c

theorem En1_arg1 (c : Dev nD) : En1 m ρ c main_arg1 = m ((c : Thread nD τ).loc main_arg1) :=
  calc W3 m ρ c (Proc.devRef .tc main_arg1)
    _ = W2 m ρ c (Proc.devRef .tc main_arg1) := StableHlo.after_of_writes_sub hostOps1 _ hostOps1_writes (r := main_arg1) (by decide)
    _ = W1 m ρ c (Proc.devRef .tc main_arg1) := (W2_arr m ρ c 1).trans (((dat0 (En0 m ρ) c).arrAt_in 1 rfl _).trans (A_eq0 (En0 m ρ) c 1))
    _ = m ((c : Thread nD τ).loc main_arg1) := En0_arg1 m ρ c

theorem En0_v0 (c : Dev nD) (a : Fin 8) (r : Fin 2048) :
    En0 m ρ c main_v0 (ix3 a (0 : Fin 1) r) = ls m c ⟨a.val * 2048 + r.val, by omega⟩ :=
  Mid.labels_value (W0 m ρ c) a r

theorem En0_v1 (c : Dev nD) (a : Fin 8) (r : Fin 2048) :
    En0 m ρ c main_v1 (ix3 a (0 : Fin 1) r) = lt m c ⟨a.val * 2048 + r.val, by omega⟩ :=
  Mid.labels_value' (W0 m ρ c) a r

theorem arr4_part (c : Dev nD) (q : Fin 2) (k : Fin 256) (d : Fin 512) :
    (dat0 (F := Ideal) (En0 m ρ) c).arrAt 4 cfg0.N (ix3 q k d) = Spec.partSum (fs m c) (ls m c) q k d := by
  rw [Val0.arr4_value]
  unfold Spec.partSum Val0.larr0 Val0.farr0
  show (_ : EReal) = _
  refine Finset.sum_congr rfl fun t _ => Finset.sum_congr rfl fun r _ => ?_
  rw [En0_v0 m ρ c, En0_arg0 m ρ c]
  rfl

theorem arr6_part (c : Dev nD) (q : Fin 2) (k : Fin 256) (d : Fin 512) :
    (dat0 (F := Ideal) (En0 m ρ) c).arrAt 6 cfg0.N (ix3 q k d) = Spec.partSum (ft m c) (lt m c) q k d := by
  rw [Val0.arr6_value]
  unfold Spec.partSum Val0.larr1 Val0.farr1
  show (_ : EReal) = _
  refine Finset.sum_congr rfl fun t _ => Finset.sum_congr rfl fun r _ => ?_
  rw [En0_v1 m ρ c, En0_arg1 m ρ c]
  rfl

theorem arr5_part (c : Dev nD) (q : Fin 2) (k : Fin 256) :
    (dat0 (F := Ideal) (En0 m ρ) c).arrAt 5 cfg0.N (ix3 q (0 : Fin 1) k) = Spec.partCnt (ls m c) q k := by
  rw [Val0C.arr5_value]
  unfold Spec.partCnt
  show (_ : EReal) = _
  refine Finset.sum_congr rfl fun t _ => Finset.sum_congr rfl fun r _ => ?_
  rw [En0_v0 m ρ c]
  rfl

theorem arr7_part (c : Dev nD) (q : Fin 2) (k : Fin 256) :
    (dat0 (F := Ideal) (En0 m ρ) c).arrAt 7 cfg0.N (ix3 q (0 : Fin 1) k) = Spec.partCnt (lt m c) q k := by
  rw [Val0C.arr7_value]
  unfold Spec.partCnt
  show (_ : EReal) = _
  refine Finset.sum_congr rfl fun t _ => Finset.sum_congr rfl fun r _ => ?_
  rw [En0_v1 m ρ c]
  rfl

theorem sumS_eq (c : Dev nD) : Mid.sumS (W2 m ρ c) = Spec.segSum (fs m c) (ls m c) := by
  funext k d
  unfold Mid.sumS Mid.halves3
  rw [show W2 m ρ c (Proc.devRef .tc main_v2_0) = (dat0 (F := Ideal) (En0 m ρ) c).arrAt 4 cfg0.N from W2_arr m ρ c 4,
    arr4_part, arr4_part, ← Spec.segSum_parts]

theorem cntS_eq (c : Dev nD) : Mid.cntS (W2 m ρ c) = Spec.segCnt (ls m c) := by
  funext k
  unfold Mid.cntS Mid.halves1
  rw [show W2 m ρ c (Proc.devRef .tc main_v2_1) = (dat0 (F := Ideal) (En0 m ρ) c).arrAt 5 cfg0.N from W2_arr m ρ c 5,
    arr5_part, arr5_part, ← Spec.segCnt_parts]

theorem sumT_eq (c : Dev nD) : Mid.sumT (W2 m ρ c) = Spec.segSum (ft m c) (lt m c) := by
  funext k d
  unfold Mid.sumT Mid.halves3
  rw [show W2 m ρ c (Proc.devRef .tc main_v2_2) = (dat0 (F := Ideal) (En0 m ρ) c).arrAt 6 cfg0.N from W2_arr m ρ c 6,
    arr6_part, arr6_part, ← Spec.segSum_parts]

theorem cntT_eq (c : Dev nD) : Mid.cntT (W2 m ρ c) = Spec.segCnt (lt m c) := by
  funext k
  unfold Mid.cntT Mid.halves1
  rw [show W2 m ρ c (Proc.devRef .tc main_v2_3) = (dat0 (F := Ideal) (En0 m ρ) c).arrAt 7 cfg0.N from W2_arr m ρ c 7,
    arr7_part, arr7_part, ← Spec.segCnt_parts]

theorem tab_uS (c : Dev nD) (h : 0 + 256 ≤ 768) : Val1.tab (En1 m ρ) c 0 h = Spec.uS (fs m c) (ls m c) := by
  funext k d
  have e := (Mid.wcat_value (W2 m ρ c) d k).1
  rw [sumS_eq, cntS_eq] at e
  refine Eq.trans ?_ e
  exact congrArg (fun j : Fin 768 => En1 m ρ c main_v26 (ix2 d j)) (Fin.ext (Nat.zero_add k.val))

theorem tab_uT (c : Dev nD) (h : 256 + 256 ≤ 768) : Val1.tab (En1 m ρ) c 256 h = Spec.uT (ft m c) (lt m c) := by
  funext k d
  have e := (Mid.wcat_value (W2 m ρ c) d k).2.1
  rw [sumT_eq, cntT_eq] at e
  exact e

theorem tab_uST (c : Dev nD) (h : 512 + 256 ≤ 768) :
    Val1.tab (En1 m ρ) c 512 h = Spec.uST (fs m c) (ft m c) (ls m c) (lt m c) := by
  funext k d
  have e := (Mid.wcat_value (W2 m ρ c) d k).2.2
  rw [sumS_eq, cntS_eq, sumT_eq, cntT_eq] at e
  exact e

theorem featS_eq (c : Dev nD) : Val1.featS (En1 m ρ) c = fs m c := by
  funext n d
  show En1 m ρ c main_arg0 (ix2 n d) = _
  rw [En1_arg0]

theorem featT_eq (c : Dev nD) : Val1.featT (En1 m ρ) c = ft m c := by
  funext n d
  show En1 m ρ c main_arg1 (ix2 n d) = _
  rw [En1_arg1]

theorem lanes (c : Dev nD) (q : Fin 2) :
    (dat1 (F := Ideal) (En1 m ρ) c).arrAt 3 cfg1.N (ix2 (⟨8 * q.val, by omega⟩ : Fin 16) (0 : Fin 128))
        = Spec.corePart (Spec.uS (fs m c) (ls m c)) (Spec.uT (ft m c) (lt m c)) (fs m c) (ft m c) q
      ∧ (dat1 (F := Ideal) (En1 m ρ) c).arrAt 3 cfg1.N (ix2 (⟨8 * q.val, by omega⟩ : Fin 16) (1 : Fin 128))
        = Spec.corePart (Spec.uS (fs m c) (ls m c)) (Spec.uST (fs m c) (ft m c) (ls m c) (lt m c)) (fs m c) (ft m c) q
      ∧ (dat1 (F := Ideal) (En1 m ρ) c).arrAt 3 cfg1.N (ix2 (⟨8 * q.val, by omega⟩ : Fin 16) (2 : Fin 128))
        = Spec.corePart (Spec.uT (ft m c) (lt m c)) (Spec.uST (fs m c) (ft m c) (ls m c) (lt m c)) (fs m c) (ft m c) q := by
  have h := Val1.arr3_value (En1 m ρ) c q (by omega)
  rw [tab_uS, tab_uT, tab_uST, featS_eq, featT_eq] at h
  exact h

theorem result_value (c : Dev nD) :
    W5 (F := Ideal) m ρ c (Proc.devRef .tc main_v51) = fun _ => Cert.Spec.loss (fs m c) (ft m c) (ls m c) (lt m c) := by
  show StableHlo.after (hostOps2 (F := Ideal)) (W4 m ρ c) (Proc.devRef .tc main_v51) = _
  rw [Tail.tail_value (W4 m ρ c)]
  have e27 : Tail.arr27 (W4 m ρ c) = (dat1 (F := Ideal) (En1 m ρ) c).arrAt 3 cfg1.N := W4_arr m ρ c 3
  obtain ⟨a0, a1, a2⟩ := lanes m ρ c 0
  obtain ⟨b0, b1, b2⟩ := lanes m ρ c 1
  have a0' : Tail.arr27 (W4 m ρ c) (ix2 (0 : Fin 16) (0 : Fin 128)) = _ := (congrFun e27 _).trans a0
  have b0' : Tail.arr27 (W4 m ρ c) (ix2 (8 : Fin 16) (0 : Fin 128)) = _ := (congrFun e27 _).trans b0
  have a1' : Tail.arr27 (W4 m ρ c) (ix2 (0 : Fin 16) (1 : Fin 128)) = _ := (congrFun e27 _).trans a1
  have b1' : Tail.arr27 (W4 m ρ c) (ix2 (8 : Fin 16) (1 : Fin 128)) = _ := (congrFun e27 _).trans b1
  have a2' : Tail.arr27 (W4 m ρ c) (ix2 (0 : Fin 16) (2 : Fin 128)) = _ := (congrFun e27 _).trans a2
  have b2' : Tail.arr27 (W4 m ρ c) (ix2 (8 : Fin 16) (2 : Fin 128)) = _ := (congrFun e27 _).trans b2
  rw [a0', b0', a1', b1', a2', b2', ← Spec.total_parts, ← Spec.total_parts, ← Spec.total_parts]
  rfl

end Cert.KernelIdeal.Value

end
-- ==== Proof.Ref.Run.lean ====
import proofs.«420579_j54743653155312_3_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_cst (constant S_ .f32 0x3F800000#32),
    unary main_cst main_v0 (broadcastInDim S16384 ![] bcast_S_S16384),
    nullary main_cst_0 (constant S_ .f32 0x3F800000#32),
    unary main_cst_0 main_v1 (broadcastInDim S16384 ![] bcast_S_S16384),
    nullary main_cst_1 (constant S_ .f32 0x00000000#32),
    unary main_cst_1 main_v2 (broadcastInDim S256 ![] bcast_S_S256),
    unary main_arg2 main_v3 (broadcastInDim S16384x1 ![0] bcast_S16384_S16384x1_0),
    ternary main_v2 main_v3 main_v0 main_v4 (fun x i u => Host.scatterAdd scatter_S256_S16384x1_S16384_n_0_0_1 x i u),
    nullary main_cst_2 (constant S_ .f32 0x00000000#32),
    unary main_cst_2 main_v5 (broadcastInDim S256 ![] bcast_S_S256),
    unary main_arg3 main_v6 (broadcastInDim S16384x1 ![0] bcast_S16384_S16384x1_0),
    ternary main_v5 main_v6 main_v1 main_v7 (fun x i u => Host.scatterAdd scatter_S256_S16384x1_S16384_n_0_0_1 x i u),
    nullary main_cst_3 (constant S_ .f32 0x00000000#32),
    unary main_cst_3 main_v8 (broadcastInDim S256x512 ![] bcast_S_S256x512),
    unary main_arg2 main_v9 (broadcastInDim S16384x1 ![0] bcast_S16384_S16384x1_0),
    ternary main_v8 main_v9 main_arg0 main_v10 (fun x i u => Host.scatterAdd scatter_S256x512_S16384x1_S16384x512_1_0_0_1 x i u),
    nullary main_cst_4 (constant S_ .f32 0x00000000#32),
    unary main_cst_4 main_v11 (broadcastInDim S256x512 ![] bcast_S_S256x512),
    unary main_arg3 main_v12 (broadcastInDim S16384x1 ![0] bcast_S16384_S16384x1_0),
    ternary main_v11 main_v12 main_arg1 main_v13 (fun x i u => Host.scatterAdd scatter_S256x512_S16384x1_S16384x512_1_0_0_1 x i u),
    unary main_v4 main_v14 (broadcastInDim S256x1 ![0] bcast_S256_S256x1_0),
    unary main_v14 main_v15 (broadcastInDim S256x512 ![0, 1] bcast_S256x1_S256x512_0_1),
    binary main_v10 main_v15 main_v16 Host.divf,
    unary main_v7 main_v17 (broadcastInDim S256x1 ![0] bcast_S256_S256x1_0),
    unary main_v17 main_v18 (broadcastInDim S256x512 ![0, 1] bcast_S256x1_S256x512_0_1),
    binary main_v13 main_v18 main_v19 Host.divf,
    binary main_v10 main_v13 main_v20 addf,
    binary main_v4 main_v7 main_v21 addf,
    unary main_v21 main_v22 (broadcastInDim S256x1 ![0] bcast_S256_S256x1_0),
    unary main_v22 main_v23 (broadcastInDim S256x512 ![0, 1] bcast_S256x1_S256x512_0_1),
    binary main_v20 main_v23 main_v24 Host.divf,
    binary main_arg0 main_arg1 main_v25 (fun a b => concatenate S32768x512 0 [⟨S16384x512, a⟩, ⟨S16384x512, b⟩] concatenates_S16384x512_S16384x512_S32768x512_d0),
    unary main_v16 main_v26 (transpose S512x256 [1, 0] · transposes_S256x512_S512x256_1_0),
    binary main_v25 main_v26 main_v27 (fun l r => Host.dotGeneral dot_S32768x512_S512x256_S32768x256_1_0_0_1_n_n none l r),
    TRef.nullary (TRef.of (T := ⟨S_, .f32⟩) main_call0_cst) (constant S_ .f32 0xFF800000#32),
    TRef.binary (TRef.of (T := ⟨S32768x256, .f32⟩) main_v27) (TRef.of (T := ⟨S_, .f32⟩) main_call0_cst) (TRef.of (T := ⟨S32768, .f32⟩) main_call0_v0) (fun x v => Host.reduce FloatOps.maximumf x v reducesTo_S32768x256_S32768_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32768, .f32⟩) main_call0_v1) (broadcastInDim S32768 ![] bcast_S_S32768),
    TRef.binary (TRef.of (T := ⟨S32768, .f32⟩) main_call0_v1) (TRef.of (T := ⟨S32768, .f32⟩) main_call0_v0) (TRef.of (T := ⟨S32768, .f32⟩) main_call0_v2) maximumf,
    TRef.unary (TRef.of (T := ⟨S32768, .f32⟩) main_call0_v2) (TRef.of (T := ⟨S32768x1, .f32⟩) main_call0_v3) (broadcastInDim S32768x1 ![0] bcast_S32768_S32768x1_0),
    TRef.unary (TRef.of (T := ⟨S32768x1, .f32⟩) main_call0_v3) (TRef.of (T := ⟨S32768x256, .f32⟩) main_call0_v4) (broadcastInDim S32768x256 ![0, 1] bcast_S32768x1_S32768x256_0_1),
    TRef.binary (TRef.of (T := ⟨S32768x256, .f32⟩) main_v27) (TRef.of (T := ⟨S32768x256, .f32⟩) main_call0_v4) (TRef.of (T := ⟨S32768x256, .f32⟩) main_call0_v5) subf,
    TRef.unary (TRef.of (T := ⟨S32768x256, .f32⟩) main_call0_v5) (TRef.of (T := ⟨S32768x256, .f32⟩) main_call0_v6) Host.exp,
    TRef.nullary (TRef.of (T := ⟨S_, .f32⟩) main_call0_cst_1) (constant S_ .f32 0x00000000#32),
    TRef.binary (TRef.of (T := ⟨S32768x256, .f32⟩) main_call0_v6) (TRef.of (T := ⟨S_, .f32⟩) main_call0_cst_1) (TRef.of (T := ⟨S32768, .f32⟩) main_call0_v7) (fun x v => Host.reduceAdd x v reducesTo_S32768x256_S32768_d1 h_S_),
    TRef.unary (TRef.of (T := ⟨S32768, .f32⟩) main_call0_v7) (TRef.of (T := ⟨S32768x1, .f32⟩) main_call0_v8) (broadcastInDim S32768x1 ![0] bcast_S32768_S32768x1_0),
    TRef.unary (TRef.of (T := ⟨S32768x1, .f32⟩) main_call0_v8) (TRef.of (T := ⟨S32768x1, .f32⟩) main_call0_v9) Host.log,
    TRef.unary (TRef.of (T := ⟨S32768x1, .f32⟩) main_call0_v9) (TRef.of (T := ⟨S32768x256, .f32⟩) main_call0_v10) (broadcastInDim S32768x256 ![0, 1] bcast_S32768x1_S32768x256_0_1),
    TRef.binary (TRef.of (T := ⟨S32768x256, .f32⟩) main_call0_v5) (TRef.of (T := ⟨S32768x256, .f32⟩) main_call0_v10) (TRef.of (T := ⟨S32768x256, .f32⟩) main_v28) subf,
    unary main_v19 main_v29 (transpose S512x256 [1, 0] · transposes_S256x512_S512x256_1_0),
    binary main_v25 main_v29 main_v30 (fun l r => Host.dotGeneral dot_S32768x512_S512x256_S32768x256_1_0_0_1_n_n none l r),
    TRef.nullary (TRef.of (T := ⟨S_, .f32⟩) main_call1_cst) (constant S_ .f32 0xFF800000#32),
    TRef.binary (TRef.of (T := ⟨S32768x256, .f32⟩) main_v30) (TRef.of (T := ⟨S_, .f32⟩) main_call1_cst) (TRef.of (T := ⟨S32768, .f32⟩) main_call1_v0) (fun x v => Host.reduce FloatOps.maximumf x v reducesTo_S32768x256_S32768_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S32768, .f32⟩) main_call1_v1) (broadcastInDim S32768 ![] bcast_S_S32768),
    TRef.binary (TRef.of (T := ⟨S32768, .f32⟩) main_call1_v1) (TRef.of (T := ⟨S32768, .f32⟩) main_call1_v0) (TRef.of (T := ⟨S32768, .f32⟩) main_call1_v2) maximumf,
    TRef.unary (TRef.of (T := ⟨S32768, .f32⟩) main_call1_v2) (TRef.of (T := ⟨S32768x1, .f32⟩) main_call1_v3) (broadcastInDim S32768x1 ![0] bcast_S32768_S32768x1_0),
    TRef.unary (TRef.of (T := ⟨S32768x1, .f32⟩) main_call1_v3) (TRef.of (T := ⟨S32768x256, .f32⟩) main_call1_v4) (broadcastInDim S32768x256 ![0, 1] bcast_S32768x1_S32768x256_0_1),
    TRef.binary (TRef.of (T := ⟨S32768x256, .f32⟩) main_v30) (TRef.of (T := ⟨S32768x256, .f32⟩) main_call1_v4) (TRef.of (T := ⟨S32768x256, .f32⟩) main_call1_v5) subf,
    TRef.unary (TRef.of (T := ⟨S32768x256, .f32⟩) main_call1_v5) (TRef.of (T := ⟨S32768x256, .f32⟩) main_call1_v6) Host.exp,
    TRef.nullary (TRef.of (T := ⟨S_, .f32⟩) main_call1_cst_1) (constant S_ .f32 0x00000000#32),
    TRef.binary (TRef.of (T := ⟨S32768x256, .f32⟩) main_call1_v6) (TRef.of (T := ⟨S_, .f32⟩) main_call1_cst_1) (TRef.of (T := ⟨S32768, .f32⟩) main_call1_v7) (fun x v => Host.reduceAdd x v reducesTo_S32768x256_S32768_d1 h_S_),
    TRef.unary (TRef.of (T := ⟨S32768, .f32⟩) main_call1_v7) (TRef.of (T := ⟨S32768x1, .f32⟩) main_call1_v8) (broadcastInDim S32768x1 ![0] bcast_S32768_S32768x1_0),
    TRef.unary (TRef.of (T := ⟨S32768x1, .f32⟩) main_call1_v8) (TRef.of (T := ⟨S32768x1, .f32⟩) main_call1_v9) Host.log,
    TRef.unary (TRef.of (T := ⟨S32768x1, .f32⟩) main_call1_v9) (TRef.of (T := ⟨S32768x256, .f32⟩) main_call1_v10) (broadcastInDim S32768x256 ![0, 1] bcast_S32768x1_S32768x256_0_1),
    TRef.binary (TRef.of (T := ⟨S32768x256, .f32⟩) main_call1_v5) (TRef.of (T := ⟨S32768x256, .f32⟩) main_call1_v10) (TRef.of (T := ⟨S32768x256, .f32⟩) main_v31) subf,
    unary main_v24 main_v32 (transpose S512x256 [1, 0] · transposes_S256x512_S512x256_1_0),
    binary main_v25 main_v32 main_v33 (fun l r => Host.dotGeneral dot_S32768x512_S512x256_S32768x256_1_0_0_1_n_n none l r),
    TRef.nullary (TRef.of (T := ⟨S_, .f32⟩) main_call2_cst) (constant S_ .f32 0xFF800000#32),
    TRef.binary (TRef.of (T := ⟨S32768x256, .f32⟩) main_v33) (TRef.of (T := ⟨S_, .f32⟩) main_call2_cst) (TRef.of (T := ⟨S32768, .f32⟩) main_call2_v0) (fun x v => Host.reduce FloatOps.maximumf x v reducesTo_S32768x256_S32768_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S32768, .f32⟩) main_call2_v1) (broadcastInDim S32768 ![] bcast_S_S32768),
    TRef.binary (TRef.of (T := ⟨S32768, .f32⟩) main_call2_v1) (TRef.of (T := ⟨S32768, .f32⟩) main_call2_v0) (TRef.of (T := ⟨S32768, .f32⟩) main_call2_v2) maximumf,
    TRef.unary (TRef.of (T := ⟨S32768, .f32⟩) main_call2_v2) (TRef.of (T := ⟨S32768x1, .f32⟩) main_call2_v3) (broadcastInDim S32768x1 ![0] bcast_S32768_S32768x1_0),
    TRef.unary (TRef.of (T := ⟨S32768x1, .f32⟩) main_call2_v3) (TRef.of (T := ⟨S32768x256, .f32⟩) main_call2_v4) (broadcastInDim S32768x256 ![0, 1] bcast_S32768x1_S32768x256_0_1),
    TRef.binary (TRef.of (T := ⟨S32768x256, .f32⟩) main_v33) (TRef.of (T := ⟨S32768x256, .f32⟩) main_call2_v4) (TRef.of (T := ⟨S32768x256, .f32⟩) main_call2_v5) subf,
    TRef.unary (TRef.of (T := ⟨S32768x256, .f32⟩) main_call2_v5) (TRef.of (T := ⟨S32768x256, .f32⟩) main_call2_v6) Host.exp,
    TRef.nullary (TRef.of (T := ⟨S_, .f32⟩) main_call2_cst_1) (constant S_ .f32 0x00000000#32),
    TRef.binary (TRef.of (T := ⟨S32768x256, .f32⟩) main_call2_v6) (TRef.of (T := ⟨S_, .f32⟩) main_call2_cst_1) (TRef.of (T := ⟨S32768, .f32⟩) main_call2_v7) (fun x v => Host.reduceAdd x v reducesTo_S32768x256_S32768_d1 h_S_),
    TRef.unary (TRef.of (T := ⟨S32768, .f32⟩) main_call2_v7) (TRef.of (T := ⟨S32768x1, .f32⟩) main_call2_v8) (broadcastInDim S32768x1 ![0] bcast_S32768_S32768x1_0),
    TRef.unary (TRef.of (T := ⟨S32768x1, .f32⟩) main_call2_v8) (TRef.of (T := ⟨S32768x1, .f32⟩) main_call2_v9) Host.log,
    TRef.unary (TRef.of (T := ⟨S32768x1, .f32⟩) main_call2_v9) (TRef.of (T := ⟨S32768x256, .f32⟩) main_call2_v10) (broadcastInDim S32768x256 ![0, 1] bcast_S32768x1_S32768x256_0_1),
    TRef.binary (TRef.of (T := ⟨S32768x256, .f32⟩) main_call2_v5) (TRef.of (T := ⟨S32768x256, .f32⟩) main_call2_v10) (TRef.of (T := ⟨S32768x256, .f32⟩) main_v34) subf,
    unary main_v31 main_v35 Host.exp,
    binary main_v31 main_v28 main_v36 subf,
    binary main_v35 main_v36 main_v37 mulf,
    nullary main_cst_5 (constant S_ .f32 0x00000000#32),
    binary main_v37 main_cst_5 main_v38 (fun x v => Host.reduceAdd x v reducesTo_S32768x256_S_d0_1 h_S_),
    nullary main_cst_6 (constant S_ .f32 0x4B000000#32),
    binary main_v38 main_cst_6 main_v39 Host.divf,
    unary main_v28 main_v40 Host.exp,
    binary main_v28 main_v31 main_v41 subf,
    binary main_v40 main_v41 main_v42 mulf,
    nullary main_cst_7 (constant S_ .f32 0x00000000#32),
    binary main_v42 main_cst_7 main_v43 (fun x v => Host.reduceAdd x v reducesTo_S32768x256_S_d0_1 h_S_),
    nullary main_cst_8 (constant S_ .f32 0x4B000000#32),
    binary main_v43 main_cst_8 main_v44 Host.divf,
    binary main_v39 main_v44 main_v45 addf,
    nullary main_cst_9 (constant S_ .f32 0x3F000000#32),
    binary main_cst_9 main_v45 main_v46 mulf,
    unary main_v34 main_v47 Host.exp,
    binary main_v34 main_v28 main_v48 subf,
    binary main_v47 main_v48 main_v49 mulf,
    nullary main_cst_10 (constant S_ .f32 0x00000000#32),
    binary main_v49 main_cst_10 main_v50 (fun x v => Host.reduceAdd x v reducesTo_S32768x256_S_d0_1 h_S_),
    nullary main_cst_11 (constant S_ .f32 0x4B000000#32),
    binary main_v50 main_cst_11 main_v51 Host.divf,
    unary main_v28 main_v52 Host.exp,
    binary main_v28 main_v34 main_v53 subf,
    binary main_v52 main_v53 main_v54 mulf,
    nullary main_cst_12 (constant S_ .f32 0x00000000#32),
    binary main_v54 main_cst_12 main_v55 (fun x v => Host.reduceAdd x v reducesTo_S32768x256_S_d0_1 h_S_),
    nullary main_cst_13 (constant S_ .f32 0x4B000000#32),
    binary main_v55 main_cst_13 main_v56 Host.divf,
    binary main_v51 main_v56 main_v57 addf,
    nullary main_cst_14 (constant S_ .f32 0x3F000000#32),
    binary main_cst_14 main_v57 main_v58 mulf,
    unary main_v34 main_v59 Host.exp,
    binary main_v34 main_v31 main_v60 subf,
    binary main_v59 main_v60 main_v61 mulf,
    nullary main_cst_15 (constant S_ .f32 0x00000000#32),
    binary main_v61 main_cst_15 main_v62 (fun x v => Host.reduceAdd x v reducesTo_S32768x256_S_d0_1 h_S_),
    nullary main_cst_16 (constant S_ .f32 0x4B000000#32),
    binary main_v62 main_cst_16 main_v63 Host.divf,
    unary main_v31 main_v64 Host.exp,
    binary main_v31 main_v34 main_v65 subf,
    binary main_v64 main_v65 main_v66 mulf,
    nullary main_cst_17 (constant S_ .f32 0x00000000#32),
    binary main_v66 main_cst_17 main_v67 (fun x v => Host.reduceAdd x v reducesTo_S32768x256_S_d0_1 h_S_),
    nullary main_cst_18 (constant S_ .f32 0x4B000000#32),
    binary main_v67 main_cst_18 main_v68 Host.divf,
    binary main_v63 main_v68 main_v69 addf,
    nullary main_cst_19 (constant S_ .f32 0x3F000000#32),
    binary main_cst_19 main_v69 main_v70 mulf,
    binary main_v46 main_v58 main_v71 addf,
    binary main_v71 main_v70 main_v72 addf,
    nullary main_cst_20 (constant S_ .f32 0x40400000#32),
    binary main_v72 main_cst_20 main_v73 Host.divf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., binary_bufs_sub .., nullary_bufs_sub .., binary_bufs_sub .., unary_bufs_sub .., binary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., binary_bufs_sub .., nullary_bufs_sub .., binary_bufs_sub .., unary_bufs_sub .., binary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub ..⟩

set_option maxRecDepth 8192 in
set_option maxHeartbeats 55200000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = after ops (launchContents m c) (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v73,
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Value

end
-- ==== Proof.Ref.Chunks.lean ====
import proofs.«420579_j54743653155312_3_alg».proof.Proof.Ref.Run

noncomputable section

namespace Cert.ReferenceIdeal.RefValue

open Cert.ReferenceIdeal Cert.ReferenceIdeal.Value Idealize.ShloMosaic Idealize.ShloMosaic.StableHlo

variable {F : FTy → Type} [FloatOps F]

/-- The program's operations in ten stretches: class sums, tables and first logits; three log-softmaxes, the last two after their logits; three halved pair means; the final mean. -/
abbrev c0 : List (HloOp τ sig (Elt F)) := ops.take 34
abbrev l0 : List (HloOp τ sig (Elt F)) := (ops.drop 34).take 15
abbrev c1 : List (HloOp τ sig (Elt F)) := (ops.drop 49).take 2
abbrev l1 : List (HloOp τ sig (Elt F)) := (ops.drop 51).take 15
abbrev c2 : List (HloOp τ sig (Elt F)) := (ops.drop 66).take 2
abbrev l2 : List (HloOp τ sig (Elt F)) := (ops.drop 68).take 15
abbrev p0 : List (HloOp τ sig (Elt F)) := (ops.drop 83).take 17
abbrev p1 : List (HloOp τ sig (Elt F)) := (ops.drop 100).take 17
abbrev p2 : List (HloOp τ sig (Elt F)) := (ops.drop 117).take 17
abbrev tl : List (HloOp τ sig (Elt F)) := ops.drop 134

set_option maxRecDepth 8192 in
theorem ops_cut : (ops : List (HloOp τ sig (Elt F))) = c0 ++ l0 ++ c1 ++ l1 ++ c2 ++ l2 ++ p0 ++ p1 ++ p2 ++ tl := rfl

end Cert.ReferenceIdeal.RefValue

end
-- ==== Proof.Ref.Scatter.lean ====
import proofs.«420579_j54743653155312_3_alg».proof.Proof.Gen.ReferenceIdeal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-- Below 256 the signed and the unsigned reading of a word agree. -/
theorem toInt_eq_iff (w : BitVec 32) (k : Fin 256) : w.toInt = (k.val : Int) ↔ w = BitVec.ofNat 32 k.val := by
  have hk := k.isLt
  have hw := w.isLt
  rw [← BitVec.toNat_inj, BitVec.toNat_ofNat, BitVec.toInt_eq_toNat_cond]
  split <;> omega

theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- An update lands on `i` exactly when, on every axis, its start plus its window coordinate is `i`'s coordinate. -/
theorem resultIdx?_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq, funext_iff]
    refine forall_congr' fun a => ?_
    have := h a
    rw [Fin.ext_iff]
    show (_ : Int).toNat = _ ↔ _
    omega
  · rename_i h
    exact iff_of_false nofun fun hi => h fun a => by have := (i a).isLt; rw [hi a]; omega

theorem scatterAdd_apply {s si u : Shape} (d : ScatterDims s si u) {w : Nat} (x : FVec Ideal s .f32) (idx : IVec si w)
    (upd : FVec Ideal u .f32) (i : s.Idx) :
    Host.scatterAdd d x idx upd i
      = x i + ∑ j, if ∀ a, d.start j idx a + d.window j a = ((i a).val : Int) then upd j else 0 := by
  simp only [Host.scatterAdd, Ideal.hostScatterAdd_def, Ideal.hostScatterAdd]
  rw [Finset.sum_filter]
  exact congrArg (_ + ·) (Finset.sum_congr rfl fun j _ => if_congr (resultIdx?_iff d j idx i) rfl rfl)

section Count

local notation "d₁" => scatter_S256_S16384x1_S16384_n_0_0_1

theorem start1 (j : S16384.Idx) (idx : IVec S16384x1 32) :
    ScatterDims.start d₁ j idx 0 + ScatterDims.window d₁ j 0 = (idx (ix2 (j 0) (0 : Fin 1))).toInt := by
  have hi : ScatterDims.siIdx d₁ j ⟨0, by decide⟩ = ix2 (j 0) (0 : Fin 1) := by funext b; fin_cases b <;> rfl
  exact (add_zero _).trans (congrArg (fun i => (idx i).toInt) hi)

theorem scatter1_apply (x : FVec Ideal S256 .f32) (idx : IVec S16384x1 32) (upd : FVec Ideal S16384 .f32) (k : Fin 256) :
    Host.scatterAdd d₁ x idx upd (ix1 k)
      = x (ix1 k) + ∑ n : Fin 16384, if idx (ix2 n (0 : Fin 1)) = BitVec.ofNat 32 k.val then upd (ix1 n) else 0 := by
  rw [scatterAdd_apply, sum_idx1]
  refine congrArg (_ + ·) (Finset.sum_congr rfl fun n _ => if_congr ?_ rfl rfl)
  rw [Fin.forall_fin_one, start1]
  exact toInt_eq_iff _ k

end Count

section Sum

local notation "d₂" => scatter_S256x512_S16384x1_S16384x512_1_0_0_1

theorem start2_row (j : S16384x512.Idx) (idx : IVec S16384x1 32) :
    ScatterDims.start d₂ j idx 0 + ScatterDims.window d₂ j 0 = (idx (ix2 (j 0) (0 : Fin 1))).toInt := by
  have hi : ScatterDims.siIdx d₂ j ⟨0, by decide⟩ = ix2 (j 0) (0 : Fin 1) := by funext b; fin_cases b <;> rfl
  exact (add_zero _).trans (congrArg (fun i => (idx i).toInt) hi)

theorem start2_col (j : S16384x512.Idx) (idx : IVec S16384x1 32) :
    ScatterDims.start d₂ j idx 1 + ScatterDims.window d₂ j 1 = ((j 1).val : Int) := zero_add _

theorem scatter2_apply (x : FVec Ideal S256x512 .f32) (idx : IVec S16384x1 32) (upd : FVec Ideal S16384x512 .f32)
    (k : Fin 256) (e : Fin 512) :
    Host.scatterAdd d₂ x idx upd (ix2 k e)
      = x (ix2 k e) + ∑ n : Fin 16384, if idx (ix2 n (0 : Fin 1)) = BitVec.ofNat 32 k.val then upd (ix2 n e) else 0 := by
  rw [scatterAdd_apply, sum_idx2]
  refine congrArg (_ + ·) (Finset.sum_congr rfl fun n _ => ?_)
  simp only [Fin.forall_fin_two, start2_row, start2_col, toInt_eq_iff, Nat.cast_inj, ite_and]
  show (∑ b : Fin 512, if idx (ix2 n 0) = BitVec.ofNat 32 k.val then (if b.val = e.val then upd (ix2 n b) else 0) else 0) = _
  split
  · simp only [← Fin.ext_iff, Finset.sum_ite_eq', Finset.mem_univ, if_true]
  · exact Finset.sum_const_zero

end Sum

end Cert.ReferenceIdeal.RefValue

end
-- ==== Proof.RefPair.lean ====
import proofs.«420579_j54743653155312_3_alg».proof.Proof.SpecParts
import Mathlib.Algebra.BigOperators.Fin
import Mathlib.Algebra.BigOperators.Group.Finset.Basic

noncomputable section

namespace Cert.Spec

open Idealize.ShloMosaic Cert.KLMath

def cat (fs ft : Feat) : Fin 32768 → Fin 512 → EReal := fun n =>
  if h : n.val < 16384 then fs ⟨n.val, h⟩ else ft ⟨n.val - 16384, by omega⟩

def refPair (a b : Cent) (fs ft : Feat) : EReal :=
  half * (Ideal.div (∑ n : Fin 32768, ∑ k : Fin 256,
              Ideal.exp (lsm (logit b (cat fs ft n)) k) * (lsm (logit b (cat fs ft n)) k - lsm (logit a (cat fs ft n)) k)) cnt
          + Ideal.div (∑ n : Fin 32768, ∑ k : Fin 256,
              Ideal.exp (lsm (logit a (cat fs ft n)) k) * (lsm (logit a (cat fs ft n)) k - lsm (logit b (cat fs ft n)) k)) cnt)

/-- The first 16384 rows of the two arrays laid end to end are the first array's, the rest the second's. -/
theorem sum_cat (fs ft : Feat) (g : (Fin 512 → EReal) → EReal) :
    ∑ n : Fin 32768, g (cat fs ft n) = (∑ n : Fin 16384, g (fs n)) + ∑ n : Fin 16384, g (ft n) :=
  (Fin.sum_univ_add (a := 16384) (b := 16384) fun n => g (cat fs ft n)).trans (congrArg₂ (· + ·)
    (Finset.sum_congr rfl fun i _ => congrArg g (dif_pos i.isLt))
    (Finset.sum_congr rfl fun j _ => congrArg g ((dif_neg (Nat.not_lt.2 (Nat.le_add_right _ _))).trans
      (congrArg ft (Fin.ext (Nat.add_sub_cancel_left ..))))))

/-- Term by term the two one-sided products add up to the symmetric one. -/
theorem oneSided_add (a b : Cent) (fs ft : Feat) :
    (∑ n : Fin 32768, ∑ k : Fin 256,
        Ideal.exp (lsm (logit b (cat fs ft n)) k) * (lsm (logit b (cat fs ft n)) k - lsm (logit a (cat fs ft n)) k))
      + (∑ n : Fin 32768, ∑ k : Fin 256,
        Ideal.exp (lsm (logit a (cat fs ft n)) k) * (lsm (logit a (cat fs ft n)) k - lsm (logit b (cat fs ft n)) k))
      = total a b fs ft := by
  rw [← Finset.sum_add_distrib]
  refine (Finset.sum_congr rfl fun n _ => ?_).trans (sum_cat fs ft (pair a b))
  rw [← Finset.sum_add_distrib]
  exact Finset.sum_congr rfl fun k _ => (kl_term (logit a (cat fs ft n)) (logit b (cat fs ft n)) k).symm

theorem refPair_eq (a b : Cent) (fs ft : Feat) :
    refPair a b fs ft = Ideal.div (half * total a b fs ft) cnt := by
  unfold refPair half cnt
  rw [← half_div_add _ _ (1 / 2) 8388608 (by norm_num) (by norm_num), oneSided_add]

theorem loss_eq_refPairs (fs ft : Feat) (ls lt : Lab) :
    Ideal.div ((refPair (uS fs ls) (uT ft lt) fs ft + refPair (uS fs ls) (uST fs ft ls lt) fs ft)
        + refPair (uT ft lt) (uST fs ft ls lt) fs ft) three
      = loss fs ft ls lt := by
  unfold loss
  rw [refPair_eq, refPair_eq, refPair_eq]

end Cert.Spec

end
-- ==== Proof.Ref.C0.lean ====
import proofs.«420579_j54743653155312_3_alg».proof.Proof.Ref.Chunks
import proofs.«420579_j54743653155312_3_alg».proof.Proof.Ref.Scatter
import proofs.«420579_j54743653155312_3_alg».proof.Proof.RefPair
import proofs.«420579_j54743653155312_3_alg».proof.Proof.LibDot
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

section Reads

variable (f g : FVec Ideal S16384x512 .f32) (l : IVec S16384 32) (sm : FVec Ideal S256x512 .f32) (c : FVec Ideal S256 .f32)
  (x : FVec Ideal S32768x512 .f32) (k : Fin 256) (d : Fin 512) (n : Fin 32768)

theorem labelCol_apply (m : Fin 16384) :
    broadcastInDim S16384x1 ![0] bcast_S16384_S16384x1_0 l (ix2 m (0 : Fin 1)) = l (ix1 m) :=
  broadcastInDim_apply _ bcast_S16384_S16384x1_0 l _ (ix1 m) (Fin.forall_fin_one.2 rfl)

theorem cnt_apply :
    Host.scatterAdd scatter_S256_S16384x1_S16384_n_0_0_1 (broadcastInDim S256 ![] bcast_S_S256 (constant (F := Ideal) S_ .f32 0x00000000#32))
        (broadcastInDim S16384x1 ![0] bcast_S16384_S16384x1_0 l) (broadcastInDim S16384 ![] bcast_S_S16384 (constant S_ .f32 0x3F800000#32)) (ix1 k)
      = Cert.Spec.segCnt (fun m => l (ix1 m)) k := by
  rw [scatter1_apply, broadcastInDim_scalar_apply, constant_apply, Ideal.ofBits_zero_f32, zero_add]
  exact Finset.sum_congr rfl fun m _ => by
    rw [labelCol_apply, broadcastInDim_scalar_apply, constant_apply, Ideal.ofBits_one_f32]

theorem sum_apply :
    Host.scatterAdd scatter_S256x512_S16384x1_S16384x512_1_0_0_1 (broadcastInDim S256x512 ![] bcast_S_S256x512 (constant (F := Ideal) S_ .f32 0x00000000#32))
        (broadcastInDim S16384x1 ![0] bcast_S16384_S16384x1_0 l) f (ix2 k d)
      = Cert.Spec.segSum (fun m e => f (ix2 m e)) (fun m => l (ix1 m)) k d := by
  rw [scatter2_apply, broadcastInDim_scalar_apply, constant_apply, Ideal.ofBits_zero_f32, zero_add]
  exact Finset.sum_congr rfl fun m _ => by rw [labelCol_apply]

theorem tbl_apply :
    Host.divf sm (broadcastInDim S256x512 ![0, 1] bcast_S256x1_S256x512_0_1 (broadcastInDim S256x1 ![0] bcast_S256_S256x1_0 c)) (ix2 k d)
      = Ideal.div (sm (ix2 k d)) (c (ix1 k)) :=
  congrArg (Ideal.div (sm (ix2 k d)))
    ((broadcastInDim_apply _ bcast_S256x1_S256x512_0_1 _ (ix2 k d) (ix2 k (0 : Fin 1)) (Fin.forall_fin_two.2 ⟨rfl, rfl⟩)).trans
      (broadcastInDim_apply _ bcast_S256_S256x1_0 c _ (ix1 k) (Fin.forall_fin_one.2 rfl)))

theorem cat_apply :
    concatenate S32768x512 0 [⟨S16384x512, f⟩, ⟨S16384x512, g⟩] concatenates_S16384x512_S16384x512_S32768x512_d0 (ix2 n d)
      = Cert.Spec.cat (fun m e => f (ix2 m e)) (fun m e => g (ix2 m e)) n d := by
  unfold Cert.Spec.cat
  split
  · next h =>
    exact concatenate_pair_apply_left (t := S32768x512) (s₁ := S16384x512) (s₂ := S16384x512) (0 : Fin 2) f g _ (ix2 n d) rfl
      (ix2 (⟨n.val, h⟩ : Fin 16384) d) (Fin.forall_fin_two.2 ⟨rfl, rfl⟩)
  · exact concatenate_pair_apply_right (t := S32768x512) (s₁ := S16384x512) (s₂ := S16384x512) (0 : Fin 2) f g _ (ix2 n d) rfl rfl
      (ix2 (⟨n.val - 16384, by omega⟩ : Fin 16384) d) (Fin.forall_fin_two.2 ⟨fun hb => absurd rfl hb, fun _ => rfl⟩)
      (by show n.val - 16384 + 16384 = n.val; omega)

theorem logit_apply :
    Host.dotGeneral dot_S32768x512_S512x256_S32768x256_1_0_0_1_n_n none x (transpose S512x256 [1, 0] sm transposes_S256x512_S512x256_1_0) (ix2 n k)
      = ∑ e : Fin 512, x (ix2 n e) * sm (ix2 k e) := by
  rw [Cert.LibDot.dotGeneral_plain_apply dot_S32768x512_S512x256_S32768x256_1_0_0_1_n_n rfl rfl rfl rfl rfl rfl]
  exact Finset.sum_congr rfl fun e _ => by
    rw [transpose_apply [1, 0] sm transposes_S256x512_S512x256_1_0 (ix2 e k) (ix2 k e) (Fin.forall_fin_two.2 ⟨rfl, rfl⟩)]

end Reads

section Values

variable (X : Valuation τ sig (Elt Ideal))

abbrev fsX : Cert.Spec.Feat := fun n d => X (Proc.devRef .tc main_arg0) (ix2 n d)
abbrev ftX : Cert.Spec.Feat := fun n d => X (Proc.devRef .tc main_arg1) (ix2 n d)
abbrev lsX : Cert.Spec.Lab := fun n => X (Proc.devRef .tc main_arg2) (ix1 n)
abbrev ltX : Cert.Spec.Lab := fun n => X (Proc.devRef .tc main_arg3) (ix1 n)

theorem c0_v19 (k : Fin 256) (d : Fin 512) :
    StableHlo.after (c0 (F := Ideal)) X (Proc.devRef .tc main_v19) (ix2 k d) = Cert.Spec.uT (ftX X) (ltX X) k d := by
  dsimp only [c0, Value.ops, List.take]
  after_results_simp
  rw [tbl_apply, sum_apply, cnt_apply]
  rfl

theorem c0_v24 (k : Fin 256) (d : Fin 512) :
    StableHlo.after (c0 (F := Ideal)) X (Proc.devRef .tc main_v24) (ix2 k d) = Cert.Spec.uST (fsX X) (ftX X) (lsX X) (ltX X) k d := by
  dsimp only [c0, Value.ops, List.take]
  after_results_simp
  rw [tbl_apply, addf_apply, addf_apply, sum_apply, sum_apply, cnt_apply, cnt_apply]
  rfl

theorem c0_v25 (n : Fin 32768) (d : Fin 512) :
    StableHlo.after (c0 (F := Ideal)) X (Proc.devRef .tc main_v25) (ix2 n d) = Cert.Spec.cat (fsX X) (ftX X) n d := by
  dsimp only [c0, Value.ops, List.take]
  after_results_simp
  exact cat_apply (X (Proc.devRef .tc main_arg0)) (X (Proc.devRef .tc main_arg1)) d n

theorem c0_v27 (n : Fin 32768) (k : Fin 256) :
    StableHlo.after (c0 (F := Ideal)) X (Proc.devRef .tc main_v27) (ix2 n k)
      = Cert.Spec.logit (Cert.Spec.uS (fsX X) (lsX X)) (Cert.Spec.cat (fsX X) (ftX X) n) k := by
  dsimp only [c0, Value.ops, List.take]
  after_results_simp
  refine (logit_apply _ _ k n).trans (Finset.sum_congr rfl fun e _ => ?_)
  rw [cat_apply, tbl_apply, sum_apply, cnt_apply]
  rfl

end Values

end Cert.ReferenceIdeal.RefValue

end
-- ==== Proof.Ref.LogSm.lean ====
import proofs.«420579_j54743653155312_3_alg».proof.Proof.Ref.Chunks
import proofs.«420579_j54743653155312_3_alg».proof.Proof.KLMath
import proofs.«420579_j54743653155312_3_alg».proof.Proof.LibRowMax
import Idealize.ShloMosaic.Lib.IdealHost
import Idealize.ShloMosaic.Lib.Pipeline.Value

noncomputable section

namespace Cert.ReferenceIdeal.RefValue

open Cert.ReferenceIdeal.Gen Cert.ReferenceIdeal.Value Idealize.ShloMosaic Idealize.ShloMosaic.StableHlo Idealize.ShloMosaic.ValueIdx Cert.KLMath

abbrev Arr : Type := FVec Ideal S32768x256 .f32
abbrev Col : Type := FVec Ideal S32768 .f32

/-- The rows' maxima: the reduction by the maximum from −∞, and the maximum with −∞ once more. -/
def maxV (x : Arr) : Col :=
  maximumf (broadcastInDim S32768 ![] bcast_S_S32768 (constant S_ .f32 0xFF800000#32))
    (Host.reduce FloatOps.maximumf x (constant S_ .f32 0xFF800000#32) reducesTo_S32768x256_S32768_d1 h_S_)

/-- One value a row, as a column, and a column laid along the rows. -/
def col (v : Col) : FVec Ideal S32768x1 .f32 := broadcastInDim S32768x1 ![0] bcast_S32768_S32768x1_0 v
def rows (w : FVec Ideal S32768x1 .f32) : Arr := broadcastInDim S32768x256 ![0, 1] bcast_S32768x1_S32768x256_0_1 w

def shiftV (x : Arr) : Arr := subf x (rows (col (maxV x)))

def denomV (x : Arr) : Col :=
  Host.reduceAdd (Host.exp (shiftV x)) (constant S_ .f32 0x00000000#32) reducesTo_S32768x256_S32768_d1 h_S_

/-- The log-softmax of the rows, as the operations of a log-softmax stretch compute it. -/
def lsmV (x : Arr) : Arr := subf (shiftV x) (rows (Host.log (col (denomV x))))

theorem ofBuf_toBuf {T : BufTy} (x : TRef sig T) (v : T.Contents (Elt Ideal)) : x.ofBuf (x.toBuf v) = v := by
  obtain ⟨r, rfl, h1, h2⟩ := x
  rfl

variable (Y : Valuation τ sig (Elt Ideal))

theorem l0_term :
    after l0 Y (no_index (Proc.devRef .tc main_v28)) = lsmV (Y (Proc.devRef .tc main_v27)) := by
  dsimp only [l0, ops, List.drop, List.take]; after_results_simp; simp only [ofBuf_toBuf]; rfl

theorem l1_term :
    after l1 Y (no_index (Proc.devRef .tc main_v31)) = lsmV (Y (Proc.devRef .tc main_v30)) := by
  dsimp only [l1, ops, List.drop, List.take]; after_results_simp; simp only [ofBuf_toBuf]; rfl

theorem l2_term :
    after l2 Y (no_index (Proc.devRef .tc main_v34)) = lsmV (Y (Proc.devRef .tc main_v33)) := by
  dsimp only [l2, ops, List.drop, List.take]; after_results_simp; simp only [ofBuf_toBuf]; rfl

variable (x : Arr) (v : Col) (w : FVec Ideal S32768x1 .f32) (n : Fin 32768) (k : Fin 256)

theorem col_apply : col v (ix2 n 0) = v (ix1 n) :=
  broadcastInDim_apply _ bcast_S32768_S32768x1_0 v _ (ix1 n) fun a => match a with | ⟨0, _⟩ => rfl

theorem rows_apply : rows w (ix2 n k) = w (ix2 n 0) :=
  broadcastInDim_apply _ bcast_S32768x1_S32768x256_0_1 w _ (ix2 n 0) fun a => match a with | ⟨0, _⟩ => rfl | ⟨1, _⟩ => rfl

theorem hostLog_apply {s : Shape} (y : FVec Ideal s .f32) (i : s.Idx) : Host.log y i = Ideal.log (y i) := rfl

theorem red : S32768x256.Reduces [1] S32768 := by decide

theorem maxV_apply : maxV x (ix1 n) = rowMax fun k => x (ix2 n k) := by
  unfold maxV
  rw [maximumf_apply, broadcastInDim_scalar_apply, constant_apply, Cert.LibRowMax.ofBits_neg_inf_f32,
    Cert.LibRowMax.hostReduce_max_row x _ red h_S_ n]
  exact max_eq_right bot_le

theorem shiftV_apply : shiftV x (ix2 n k) = shift (fun k' => x (ix2 n k')) k := by
  unfold shiftV
  rw [subf_apply, rows_apply, col_apply, maxV_apply]
  rfl

theorem denomV_apply : denomV x (ix1 n) = denom fun k => x (ix2 n k) := by
  unfold denomV denom
  rw [hostReduceAdd_apply, Ideal.hostReduceAdd_single _ red, constant_apply, Ideal.ofBits_zero_f32, zero_add]
  exact Finset.sum_congr rfl fun k _ => by
    rw [Cert.LibRowMax.lift_row red n k]; exact congrArg Ideal.exp (shiftV_apply x n _)

theorem lsmV_apply : lsmV x (ix2 n k) = lsm (fun k' => x (ix2 n k')) k := by
  unfold lsmV
  rw [subf_apply, rows_apply, hostLog_apply, col_apply, denomV_apply, shiftV_apply]
  rfl

end Cert.ReferenceIdeal.RefValue

end
-- ==== Proof.Ref.Logits.lean ====
import proofs.«420579_j54743653155312_3_alg».proof.Proof.Ref.C0
import proofs.«420579_j54743653155312_3_alg».proof.Proof.Ref.LogSm

noncomputable section

namespace Cert.ReferenceIdeal.RefValue

open Cert.ReferenceIdeal.Gen Cert.ReferenceIdeal.Value Idealize.ShloMosaic Idealize.ShloMosaic.StableHlo Idealize.ShloMosaic.ValueIdx Cert.KLMath

def logitV (x : FVec Ideal S32768x512 .f32) (u : FVec Ideal S256x512 .f32) : Arr :=
  Host.dotGeneral dot_S32768x512_S512x256_S32768x256_1_0_0_1_n_n none x (transpose S512x256 [1, 0] u transposes_S256x512_S512x256_1_0)

variable (Y : Valuation τ sig (Elt Ideal))

theorem c1_term :
    after c1 Y (no_index (Proc.devRef .tc main_v30)) = logitV (Y (Proc.devRef .tc main_v25)) (Y (Proc.devRef .tc main_v19)) := by
  dsimp only [c1, ops, List.drop, List.take]; after_results_simp; rfl

theorem c2_term :
    after c2 Y (no_index (Proc.devRef .tc main_v33)) = logitV (Y (Proc.devRef .tc main_v25)) (Y (Proc.devRef .tc main_v24)) := by
  dsimp only [c2, ops, List.drop, List.take]; after_results_simp; rfl

/-- The log-softmax of the rows' logits against a table, from what the rows and the table are at an index. -/
theorem lsm_logit (x : FVec Ideal S32768x512 .f32) (u : FVec Ideal S256x512 .f32) (r : Fin 32768 → Fin 512 → EReal)
    (t : Cert.Spec.Cent) (hx : ∀ n d, x (ix2 n d) = r n d) (hu : ∀ k d, u (ix2 k d) = t k d) (n : Fin 32768) (k : Fin 256) :
    lsmV (logitV x u) (ix2 n k) = lsm (Cert.Spec.logit t (r n)) k := by
  rw [lsmV_apply]
  exact congrArg (lsm · k) (funext fun k' => (logit_apply u x k' n).trans
    (Finset.sum_congr rfl fun d _ => congrArg₂ (· * ·) (hx n d) (hu k' d)))

end Cert.ReferenceIdeal.RefValue

end
-- ==== Proof.Ref.Pairs.lean ====
import proofs.«420579_j54743653155312_3_alg».proof.Proof.Ref.LogSm
import proofs.«420579_j54743653155312_3_alg».proof.Proof.Spec

noncomputable section

namespace Cert.ReferenceIdeal.RefValue

open Cert.ReferenceIdeal.Gen Cert.ReferenceIdeal.Value Idealize.ShloMosaic Idealize.ShloMosaic.StableHlo Idealize.ShloMosaic.ValueIdx Cert.KLMath Cert.Spec

/-- The one-sided total of a pair of arrays, and the halved sum of the pair's two one-sided means. -/
abbrev oneSided (a b : Arr) : EReal :=
  ∑ n : Fin 32768, ∑ k : Fin 256, Ideal.exp (a (ix2 n k)) * (a (ix2 n k) - b (ix2 n k))
abbrev pairE (a b : Arr) : EReal := half * (Ideal.div (oneSided a b) cnt + Ideal.div (oneSided b a) cnt)

/-- The sum over all entries of exp a · (a − b), from zero, as the operations compute it. -/
def oneV (a b : Arr) : FVec Ideal S_ .f32 :=
  Host.reduceAdd (mulf (Host.exp a) (subf a b)) (constant S_ .f32 0x00000000#32) reducesTo_S32768x256_S_d0_1 h_S_

variable (a b : Arr) (i : S_.Idx) (Y : Valuation τ sig (Elt Ideal))

theorem oneV_apply : oneV a b i = oneSided a b :=
  (Ideal.hostReduceAdd_total reducesTo_S32768x256_S_d0_1 (fun b => b.elim0) _ _ i).trans
    ((congrArg₂ (· + ·) Ideal.ofBits_zero_f32 (sum_idx2 _)).trans (zero_add _))

theorem pair_term :
    mulf (constant S_ .f32 0x3F000000#32) (addf (Host.divf (oneV a b) (constant S_ .f32 0x4B000000#32))
      (Host.divf (oneV b a) (constant S_ .f32 0x4B000000#32))) i = pairE a b :=
  congrArg₂ (· * ·) c_half (congrArg₂ (· + ·) (congrArg₂ Ideal.div (oneV_apply a b i) c_cnt)
    (congrArg₂ Ideal.div (oneV_apply b a i) c_cnt))

theorem p0_value :
    after p0 Y (no_index (Proc.devRef .tc main_v46)) = fun _ => pairE (Y (Proc.devRef .tc main_v31)) (Y (Proc.devRef .tc main_v28)) := by
  dsimp only [p0, ops, List.drop, List.take]; after_results_simp; exact funext (pair_term _ _)

theorem p1_value :
    after p1 Y (no_index (Proc.devRef .tc main_v58)) = fun _ => pairE (Y (Proc.devRef .tc main_v34)) (Y (Proc.devRef .tc main_v28)) := by
  dsimp only [p1, ops, List.drop, List.take]; after_results_simp; exact funext (pair_term _ _)

theorem p2_value :
    after p2 Y (no_index (Proc.devRef .tc main_v70)) = fun _ => pairE (Y (Proc.devRef .tc main_v34)) (Y (Proc.devRef .tc main_v31)) := by
  dsimp only [p2, ops, List.drop, List.take]; after_results_simp; exact funext (pair_term _ _)

abbrev at0 (f : S_.Idx → EReal) : EReal := f ix0

theorem tl_value :
    after tl Y (no_index (Proc.devRef .tc main_v73)) = fun _ => Ideal.div
      ((at0 (Y (Proc.devRef .tc main_v46)) + at0 (Y (Proc.devRef .tc main_v58))) + at0 (Y (Proc.devRef .tc main_v70))) three := by
  dsimp only [tl, ops, List.drop, List.take]; after_results_simp
  funext i
  obtain rfl := eq_ix0 i
  exact congrArg₂ Ideal.div rfl c_three

end Cert.ReferenceIdeal.RefValue

end
-- ==== Proof.Ref.Value.lean ====
import proofs.«420579_j54743653155312_3_alg».proof.Proof.Ref.Logits
import proofs.«420579_j54743653155312_3_alg».proof.Proof.Ref.Pairs
import proofs.«420579_j54743653155312_3_alg».proof.Proof.RefPair

noncomputable section

namespace Cert.ReferenceIdeal.RefValue

open Cert.ReferenceIdeal.Gen Cert.ReferenceIdeal.Value Idealize.ShloMosaic Idealize.ShloMosaic.StableHlo Idealize.ShloMosaic.ValueIdx Cert.KLMath Cert.Spec

theorem pair_of (a b : Arr) (u v : Cent) (fs ft : Feat)
    (ha : ∀ n k, a (ix2 n k) = lsm (logit u (cat fs ft n)) k) (hb : ∀ n k, b (ix2 n k) = lsm (logit v (cat fs ft n)) k) :
    pairE b a = refPair u v fs ft := by
  simp only [pairE, oneSided, ha, hb]
  rfl

/-- The program's operations leave the loss: each stretch's result is read where it is made, every other reference being left alone. -/
theorem ops_value (X : Valuation τ sig (Elt Ideal)) :
    after ops X (Proc.devRef .tc main_v73) = fun _ => loss (fsX X) (ftX X) (lsX X) (ltX X) := by
  have hA (n k) : lsmV (after c0 X (Proc.devRef .tc main_v27)) (ix2 n k) = _ :=
    (lsmV_apply _ n k).trans (congrArg (lsm · k) (funext (c0_v27 X n)))
  have hB := lsm_logit _ _ _ _ (c0_v25 X) (c0_v19 X)
  have hC := lsm_logit _ _ _ _ (c0_v25 X) (c0_v24 X)
  rw [ops_cut]
  simp only [after_append]
  simp (disch := decide) only [after_of_forall_not_mem, at0, tl_value, p0_value, p1_value, p2_value, l0_term, l1_term, l2_term,
    c1_term, c2_term]
  rw [pair_of _ _ _ _ _ _ hA hB, pair_of _ _ _ _ _ _ hA hC, pair_of _ _ _ _ _ _ hB hC, loss_eq_refPairs]

variable (m : (ℓ : Loc nD τ sig) → Buf (Elt Ideal) ℓ) (c : Dev nD)

theorem ref_value : after ops (launchContents m c) (Proc.devRef .tc main_v73)
    = fun _ => loss (fsX (launchContents m c)) (ftX (launchContents m c)) (lsX (launchContents m c)) (ltX (launchContents m c)) :=
  ops_value _

theorem fsX_launch : fsX (launchContents m c) = fun n d => m ((c.tc : Thread nD τ).loc main_arg0) (ix2 n d) := rfl
theorem ftX_launch : ftX (launchContents m c) = fun n d => m ((c.tc : Thread nD τ).loc main_arg1) (ix2 n d) := rfl
theorem lsX_launch : lsX (launchContents m c) = fun n => m ((c.tc : Thread nD τ).loc main_arg2) (ix1 n) := rfl
theorem ltX_launch : ltX (launchContents m c) = fun n => m ((c.tc : Thread nD τ).loc main_arg3) (ix1 n) := rfl

end Cert.ReferenceIdeal.RefValue

end
-- ==== Proof.lean ====
import proofs.«420579_j54743653155312_3_alg».proof.Defs
import proofs.«420579_j54743653155312_3_alg».proof.Proof.Gen.Kernel
import proofs.«420579_j54743653155312_3_alg».proof.Proof.Gen.KernelIdeal
import proofs.«420579_j54743653155312_3_alg».proof.Proof.Gen.ReferenceIdeal
import proofs.«420579_j54743653155312_3_alg».proof.Proof.Gen.Pre_finite_inputs
import proofs.«420579_j54743653155312_3_alg».proof.Proof.K.Run
import proofs.«420579_j54743653155312_3_alg».proof.Proof.KI.Run
import proofs.«420579_j54743653155312_3_alg».proof.Proof.KI.Value
import proofs.«420579_j54743653155312_3_alg».proof.Proof.Ref.Value
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ =>
  (θ_run Cert.Kernel.defs _ _).mono (fun _ h c => (h c).2) (Cert.Kernel.Gen.run_value (F := Bits) m ρ)

theorem frame_ki : Cert.frame_KernelIdeal := fun m ρ _ =>
  (θ_run Cert.KernelIdeal.defs _ _).mono (fun _ h c => (h c).2) (Cert.KernelIdeal.Gen.run_value (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => fun _ => Cert.Spec.loss (Cert.KernelIdeal.Value.fs m c) (Cert.KernelIdeal.Value.ft m c) (Cert.KernelIdeal.Value.ls m c) (Cert.KernelIdeal.Value.lt m c), ?_, ?_⟩
  · exact (θ_run Cert.KernelIdeal.defs _ _).mono
      (fun _ h c => ⟨(h c).1.trans (Cert.KernelIdeal.Value.result_value m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_value m' c, Cert.ReferenceIdeal.RefValue.fsX_launch, Cert.ReferenceIdeal.RefValue.ftX_launch,
      Cert.ReferenceIdeal.RefValue.lsX_launch, Cert.ReferenceIdeal.RefValue.ltX_launch,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
